-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part3 {F : FTy → Type} [FloatOps F] (main_v45 : IVec S_ 1) (main_v50 : IVec S50000 1) : IVec S_ 1 :=
  let main_c_19 : IVec S_ 1 := constantI S_ 1 1#1
  let main_v51 : IVec S_ 1 := (fun x v => Host.reduce IntOp.andi x v reducesTo_S50000_S_d0 h_S_) main_v50 main_c_19
  let main_v52 : IVec S_ 1 := andi main_v45 main_v51
  main_v52

def fn_part2 {F : FTy → Type} [FloatOps F] (main_arg2 : IVec S50000 32) (main_arg5 : IVec S50000 32) (main_arg11 : FVec F S1 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg2 main_v39
  let main_c_15 : IVec S_ 32 := constantI S_ 32 512#32
  let main_v41 : IVec S50000 32 := broadcastInDim S50000 ![] bcast_S_S50000 main_c_15
  let main_v42 : IVec S50000 1 := cmpi .slt main_arg2 main_v41
  let main_v43 : IVec S50000 1 := andi main_v40 main_v42
  let main_c_16 : IVec S_ 1 := constantI S_ 1 1#1
  let main_v44 : IVec S_ 1 := (fun x v => Host.reduce IntOp.andi x v reducesTo_S50000_S_d0 h_S_) main_v43 main_c_16
  let main_v45 : IVec S_ 1 := andi main_v38 main_v44
  let main_c_17 : IVec S_ 32 := constantI S_ 32 0#32
  let main_v46 : IVec S50000 32 := broadcastInDim S50000 ![] bcast_S_S50000 main_c_17
  let main_v47 : IVec S50000 1 := cmpi .sge main_arg5 main_v46
  let main_c_18 : IVec S_ 32 := constantI S_ 32 512#32
  let main_v48 : IVec S50000 32 := broadcastInDim S50000 ![] bcast_S_S50000 main_c_18
  let main_v49 : IVec S50000 1 := cmpi .slt main_arg5 main_v48
  let main_v50 : IVec S50000 1 := andi main_v47 main_v49
  fn_part3 (F := F) main_v45 main_v50

def fn_part1 {F : FTy → Type} [FloatOps F] (main_arg2 : IVec S50000 32) (main_arg5 : IVec S50000 32) (main_arg8 : FVec F S128x64 .f32) (main_arg9 : FVec F S64 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x1 .f32 := Host.absf main_arg10
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg2 main_arg5 main_arg11 main_v33

def fn {F : FTy → Type} [FloatOps F] (main_arg0 : FVec F S50000x64 .f32) (main_arg1 : IVec S2x800000 32) (main_arg2 : IVec S50000 32) (main_arg3 : FVec F S50000x64 .f32) (main_arg4 : IVec S2x800000 32) (main_arg5 : IVec S50000 32) (main_arg6 : FVec F S64x128 .f32) (main_arg7 : FVec F S128 .f32) (main_arg8 : FVec F S128x64 .f32) (main_arg9 : FVec F S64 .f32) (main_arg10 : FVec F S128x1 .f32) (main_arg11 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg3
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg6
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg8 main_arg9 main_arg10 main_arg11 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S100000x64 : Shape := ⟨2, ![100000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S50000x128 : Shape := ⟨2, ![50000, 128]⟩
abbrev S1x64 : Shape := ⟨2, ![1, 64]⟩
abbrev S100000 : Shape := ⟨1, ![100000]⟩
abbrev S100000x1 : Shape := ⟨2, ![100000, 1]⟩
abbrev S1024x64 : Shape := ⟨2, ![1024, 64]⟩
abbrev S2000x64 : Shape := ⟨2, ![2000, 64]⟩
abbrev S2000x1 : Shape := ⟨2, ![2000, 1]⟩
abbrev S2000x1024 : Shape := ⟨2, ![2000, 1024]⟩
abbrev S512 : Shape := ⟨1, ![512]⟩
abbrev S50000x1 : Shape := ⟨2, ![50000, 1]⟩
abbrev S1024 : Shape := ⟨1, ![1024]⟩
abbrev S1024x1 : Shape := ⟨2, ![1024, 1]⟩
abbrev S512x64 : Shape := ⟨2, ![512, 64]⟩
abbrev S512x128 : Shape := ⟨2, ![512, 128]⟩
abbrev S512x1 : Shape := ⟨2, ![512, 1]⟩
abbrev S1x1 : Shape := ⟨2, ![1, 1]⟩

abbrev nBuf : Space → Nat
  | .hbm => 211
  | .vmem => 17
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S50000x64, .f32⟩
  | 4 => ⟨S2x800000, .i32⟩
  | 5 => ⟨S50000, .i32⟩
  | 6 => ⟨S64x128, .f32⟩
  | 7 => ⟨S128, .f32⟩
  | 8 => ⟨S128x64, .f32⟩
  | 9 => ⟨S64, .f32⟩
  | 10 => ⟨S128x1, .f32⟩
  | 11 => ⟨S1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000, .i32⟩
  | 53 => ⟨S1x800000, .i32⟩
  | 54 => ⟨S800000, .i32⟩
  | 55 => ⟨S850000, .i32⟩
  | 56 => ⟨S1x800000, .i32⟩
  | 57 => ⟨S800000, .i32⟩
  | 58 => ⟨S850000, .i32⟩
  | 59 => ⟨S_, .f32⟩
  | 60 => ⟨S850000, .f32⟩
  | 61 => ⟨S_, .f32⟩
  | 62 => ⟨S50000, .f32⟩
  | 63 => ⟨S850000x1, .i32⟩
  | 64 => ⟨S50000, .f32⟩
  | 65 => ⟨S_, .f32⟩
  | 66 => ⟨S50000, .f32⟩
  | 67 => ⟨S50000, .i1⟩
  | 68 => ⟨S50000, .f32⟩
  | 69 => ⟨S_, .f32⟩
  | 70 => ⟨S_, .f32⟩
  | 71 => ⟨S50000, .f32⟩
  | 72 => ⟨S50000, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000, .f32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .f32⟩
  | 101 => ⟨S850000x1, .f32⟩
  | 102 => ⟨S850000x64, .f32⟩
  | 103 => ⟨S850000x64, .f32⟩
  | 104 => ⟨S_, .f32⟩
  | 105 => ⟨S50000x64, .f32⟩
  | 106 => ⟨S850000x1, .i32⟩
  | 107 => ⟨S50000x64, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x1, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S100000x64, .f32⟩
  | 125 => ⟨S1x128, .f32⟩
  | 126 => ⟨S100000x128, .f32⟩
  | 127 => ⟨S50000x128, .f32⟩
  | _ => ⟨S50000x64, .f32⟩

abbrev hbmTy0_1 (i : Nat) : BufTy := match i % 128 with
  | 0 => ⟨S50000x128, .f32⟩
  | 1 => ⟨S100000x64, .f32⟩
  | 2 => ⟨S50000x64, .f32⟩
  | 3 => ⟨S50000x64, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x64, .f32⟩
  | 13 => ⟨S850000x1, .f32⟩
  | 14 => ⟨S850000x64, .f32⟩
  | 15 => ⟨S850000x64, .f32⟩
  | 16 => ⟨S_, .f32⟩
  | 17 => ⟨S50000x64, .f32⟩
  | 18 => ⟨S850000x1, .i32⟩
  | 19 => ⟨S50000x64, .f32⟩
  | 20 => ⟨S1x64, .f32⟩
  | 21 => ⟨S50000x64, .f32⟩
  | 22 => ⟨S50000x64, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000x64, .f32⟩
  | 32 => ⟨S850000x1, .f32⟩
  | 33 => ⟨S850000x64, .f32⟩
  | 34 => ⟨S850000x64, .f32⟩
  | 35 => ⟨S_, .f32⟩
  | 36 => ⟨S50000x64, .f32⟩
  | 37 => ⟨S850000x1, .i32⟩
  | 38 => ⟨S50000x64, .f32⟩
  | 39 => ⟨S1x64, .f32⟩
  | 40 => ⟨S50000x64, .f32⟩
  | 41 => ⟨S50000x64, .f32⟩
  | 42 => ⟨S100000x64, .f32⟩
  | 43 => ⟨S_, .i32⟩
  | 44 => ⟨S50000, .i32⟩
  | 45 => ⟨S50000, .i32⟩
  | 46 => ⟨S100000, .i32⟩
  | 47 => ⟨S100000x1, .i32⟩
  | 48 => ⟨S1024x64, .f32⟩
  | 49 => ⟨S_, .f32⟩
  | 50 => ⟨S50000, .f32⟩
  | 51 => ⟨S_, .f32⟩
  | 52 => ⟨S512, .f32⟩
  | 53 => ⟨S50000x1, .i32⟩
  | 54 => ⟨S512, .f32⟩
  | 55 => ⟨S_, .f32⟩
  | 56 => ⟨S50000, .f32⟩
  | 57 => ⟨S_, .f32⟩
  | 58 => ⟨S512, .f32⟩
  | 59 => ⟨S50000x1, .i32⟩
  | 60 => ⟨S512, .f32⟩
  | 61 => ⟨S1024, .f32⟩
  | 62 => ⟨S_, .f32⟩
  | 63 => ⟨S1024, .f32⟩
  | 64 => ⟨S1024, .f32⟩
  | 65 => ⟨S1024x1, .f32⟩
  | 66 => ⟨S1024x64, .f32⟩
  | 67 => ⟨S1024x64, .f32⟩
  | 68 => ⟨S512x64, .f32⟩
  | 69 => ⟨S512x64, .f32⟩
  | 70 => ⟨S512x128, .f32⟩
  | 71 => ⟨S512x1, .f32⟩
  | 72 => ⟨S1x1, .f32⟩
  | 73 => ⟨S512x1, .f32⟩
  | 74 => ⟨S512x1, .f32⟩
  | 75 => ⟨S512x1, .f32⟩
  | 76 => ⟨S512x1, .f32⟩
  | 77 => ⟨S_, .f32⟩
  | 78 => ⟨S512x1, .f32⟩
  | 79 => ⟨S512x1, .f32⟩
  | 80 => ⟨S_, .f32⟩
  | 81 => ⟨S512x1, .f32⟩
  | 82 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S2000x64, .f32⟩
  | .local _ .vmem, ⟨12, _⟩ => ⟨S2000x64, .f32⟩
  | .local _ .vmem, ⟨13, _⟩ => ⟨S2000x1, .i32⟩
  | .local _ .vmem, ⟨14, _⟩ => ⟨S2000x1, .i32⟩
  | .local _ .vmem, ⟨15, _⟩ => ⟨S1024x64, .f32⟩
  | .local _ .vmem, ⟨16, _⟩ => ⟨S1024x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_14 : Ref sig .tc := ⟨.hbm, 92, rfl⟩
abbrev main_v60 : Ref sig .tc := ⟨.hbm, 93, rfl⟩
abbrev main_v61 : Ref sig .tc := ⟨.hbm, 94, rfl⟩
abbrev main_c_15 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_17 : Ref sig .tc := ⟨.hbm, 108, rfl⟩
abbrev main_v73 : Ref sig .tc := ⟨.hbm, 109, rfl⟩
abbrev main_v74 : Ref sig .tc := ⟨.hbm, 110, rfl⟩
abbrev main_c_18 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_20 : Ref sig .tc := ⟨.hbm, 132, rfl⟩
abbrev main_v94 : Ref sig .tc := ⟨.hbm, 133, rfl⟩
abbrev main_v95 : Ref sig .tc := ⟨.hbm, 134, rfl⟩
abbrev main_c_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_22 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_23 : Ref sig .tc := ⟨.hbm, 151, rfl⟩
abbrev main_v110 : Ref sig .tc := ⟨.hbm, 152, rfl⟩
abbrev main_v111 : Ref sig .tc := ⟨.hbm, 153, rfl⟩
abbrev main_c_24 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_25 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_26 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_27 : Ref sig .tc := ⟨.hbm, 177, rfl⟩
abbrev main_v132 : Ref sig .tc := ⟨.hbm, 178, rfl⟩
abbrev main_cst_28 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_29 : Ref sig .tc := ⟨.hbm, 183, rfl⟩
abbrev main_v136 : Ref sig .tc := ⟨.hbm, 184, rfl⟩
abbrev main_cst_30 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_31 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_32 : Ref sig .tc := ⟨.hbm, 205, rfl⟩
abbrev main_v155 : Ref sig .tc := ⟨.hbm, 206, rfl⟩
abbrev main_v156 : Ref sig .tc := ⟨.hbm, 207, rfl⟩
abbrev main_cst_33 : Ref sig .tc := ⟨.hbm, 208, rfl⟩
abbrev main_v157 : Ref sig .tc := ⟨.hbm, 209, rfl⟩
abbrev main_v158 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  concatenates_S50000x64_S50000x64_S100000x64_d0 : Shape.Concatenates [S50000x64, S50000x64] S100000x64 0
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S100000x128_S50000x128_0_0 : S100000x128.Slices ![0, 0] S50000x128
  slices_S100000x128_S50000x128_50000_0 : S100000x128.Slices ![50000, 0] S50000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  slices_S100000x64_S50000x64_0_0 : S100000x64.Slices ![0, 0] S50000x64
  slices_S100000x64_S50000x64_50000_0 : S100000x64.Slices ![50000, 0] S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000_S50000_S100000_d0 : Shape.Concatenates [S50000, S50000] S100000 0
  shapeCasts_S100000_S100000x1 : S100000.ShapeCasts S100000x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S2000x1024_d1_w32 : S2000x1024.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bcast_S_S512 : S_.BroadcastsInDim S512 (![] : Fin 0 → Fin S512.rank)
  bcast_S50000_S50000x1_0 : S50000.BroadcastsInDim S50000x1 (![0] : Fin 1 → Fin S50000x1.rank)
  concatenates_S512_S512_S1024_d0 : Shape.Concatenates [S512, S512] S1024 0
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  slices_S1024x64_S512x64_0_0 : S1024x64.Slices ![0, 0] S512x64
  slices_S1024x64_S512x64_512_0 : S1024x64.Slices ![512, 0] S512x64
  concatenates_S512x64_S512x64_S512x128_d1 : Shape.Concatenates [S512x64, S512x64] S512x128 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S2000x1024_S2000x64_S1024x64_0_0_1_1_n_n_wf : DotDims.WF S2000x1024 S2000x64 S1024x64 [0] [0] [1] [1] [] []
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .i32 = 32 ∨ (Rect.block (s := S100000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S1024x64.size a
  hwx2_2 : ∀ i : grid2.Coords, EltTy.bits .f32 = 32 ∨ (Rect.block (s := S1024x64) S1024x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S2000x1024_S2000x64_S1024x64_0_0_1_1_n_n : DotDims S2000x1024 S2000x64 S1024x64 where
  lhsContracting := [0]
  rhsContracting := [0]
  lhsNonContracting := [1]
  rhsNonContracting := [1]
  lhsBatch := []
  rhsBatch := []
  wf := dot_S2000x1024_S2000x64_S1024x64_0_0_1_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v86) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v87) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v88) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v88) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v126) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v130) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v131) S1024x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S512x128 : Shape := ⟨2, ![512, 128]⟩
abbrev S1x1 : Shape := ⟨2, ![1, 1]⟩

abbrev nBuf : Space → Nat
  | .hbm => 289
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S50000x64, .f32⟩
  | 4 => ⟨S2x800000, .i32⟩
  | 5 => ⟨S50000, .i32⟩
  | 6 => ⟨S64x128, .f32⟩
  | 7 => ⟨S128, .f32⟩
  | 8 => ⟨S128x64, .f32⟩
  | 9 => ⟨S64, .f32⟩
  | 10 => ⟨S128x1, .f32⟩
  | 11 => ⟨S1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S50000x128, .f32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x64, .f32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x1, .f32⟩
  | 119 => ⟨S850000x64, .f32⟩
  | 120 => ⟨S850000x64, .f32⟩
  | 121 => ⟨S_, .f32⟩
  | 122 => ⟨S50000x64, .f32⟩
  | 123 => ⟨S850000x1, .i32⟩
  | 124 => ⟨S50000x64, .f32⟩
  | 125 => ⟨S1x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S512x64, .f32⟩
  | 2 => ⟨S50000x1, .i32⟩
  | 3 => ⟨S512x64, .f32⟩
  | 4 => ⟨S_, .f32⟩
  | 5 => ⟨S50000, .f32⟩
  | 6 => ⟨S_, .f32⟩
  | 7 => ⟨S512, .f32⟩
  | 8 => ⟨S50000x1, .i32⟩
  | 9 => ⟨S512, .f32⟩
  | 10 => ⟨S_, .f32⟩
  | 11 => ⟨S512, .f32⟩
  | 12 => ⟨S512, .f32⟩
  | 13 => ⟨S512x1, .f32⟩
  | 14 => ⟨S512x64, .f32⟩
  | 15 => ⟨S512x64, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S50000x128, .f32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x64, .f32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x64, .f32⟩
  | 122 => ⟨S850000x1, .f32⟩
  | 123 => ⟨S850000x64, .f32⟩
  | 124 => ⟨S850000x64, .f32⟩
  | 125 => ⟨S_, .f32⟩
  | 126 => ⟨S50000x64, .f32⟩
  | 127 => ⟨S850000x1, .i32⟩
  | _ => ⟨S50000x64, .f32⟩

abbrev hbmTy0_2 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S512x64, .f32⟩
  | 6 => ⟨S50000x1, .i32⟩
  | 7 => ⟨S512x64, .f32⟩
  | 8 => ⟨S_, .f32⟩
  | 9 => ⟨S50000, .f32⟩
  | 10 => ⟨S_, .f32⟩
  | 11 => ⟨S512, .f32⟩
  | 12 => ⟨S50000x1, .i32⟩
  | 13 => ⟨S512, .f32⟩
  | 14 => ⟨S_, .f32⟩
  | 15 => ⟨S512, .f32⟩
  | 16 => ⟨S512, .f32⟩
  | 17 => ⟨S512x1, .f32⟩
  | 18 => ⟨S512x64, .f32⟩
  | 19 => ⟨S512x64, .f32⟩
  | 20 => ⟨S512x128, .f32⟩
  | 21 => ⟨S512x1, .f32⟩
  | 22 => ⟨S1x1, .f32⟩
  | 23 => ⟨S512x1, .f32⟩
  | 24 => ⟨S512x1, .f32⟩
  | 25 => ⟨S512x1, .f32⟩
  | 26 => ⟨S512x1, .f32⟩
  | 27 => ⟨S_, .f32⟩
  | 28 => ⟨S512x1, .f32⟩
  | 29 => ⟨S512x1, .f32⟩
  | 30 => ⟨S_, .f32⟩
  | 31 => ⟨S512x1, .f32⟩
  | 32 => ⟨S512x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v56 : Ref sig .tc := ⟨.hbm, 89, rfl⟩
abbrev main_c_13 : Ref sig .tc := ⟨.hbm, 90, rfl⟩
abbrev main_v57 : Ref sig .tc := ⟨.hbm, 91, rfl⟩
abbrev main_v58 : Ref sig .tc := ⟨.hbm, 92, rfl⟩
abbrev main_c_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_15 : Ref sig .tc := ⟨.hbm, 99, rfl⟩
abbrev main_v64 : Ref sig .tc := ⟨.hbm, 100, rfl⟩
abbrev main_v65 : Ref sig .tc := ⟨.hbm, 101, rfl⟩
abbrev main_c_16 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_17 : Ref sig .tc := ⟨.hbm, 109, rfl⟩
abbrev main_v72 : Ref sig .tc := ⟨.hbm, 110, rfl⟩
abbrev main_v73 : Ref sig .tc := ⟨.hbm, 111, rfl⟩
abbrev main_c_18 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_cst_22 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_23 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_24 : Ref sig .tc := ⟨.hbm, 152, rfl⟩
abbrev main_v108 : Ref sig .tc := ⟨.hbm, 153, rfl⟩
abbrev main_cst_25 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_26 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_27 : Ref sig .tc := ⟨.hbm, 162, rfl⟩
abbrev main_call3_v0 : Ref sig .tc := ⟨.hbm, 163, rfl⟩
abbrev main_call3_v1 : Ref sig .tc := ⟨.hbm, 164, rfl⟩
abbrev main_v115 : Ref sig .tc := ⟨.hbm, 165, rfl⟩
abbrev main_c_28 : Ref sig .tc := ⟨.hbm, 166, rfl⟩
abbrev main_v116 : Ref sig .tc := ⟨.hbm, 167, rfl⟩
abbrev main_v117 : Ref sig .tc := ⟨.hbm, 168, rfl⟩
abbrev main_c_29 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_c_30 : Ref sig .tc := ⟨.hbm, 175, rfl⟩
abbrev main_v123 : Ref sig .tc := ⟨.hbm, 176, rfl⟩
abbrev main_v124 : Ref sig .tc := ⟨.hbm, 177, rfl⟩
abbrev main_c_31 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_32 : Ref sig .tc := ⟨.hbm, 185, rfl⟩
abbrev main_v131 : Ref sig .tc := ⟨.hbm, 186, rfl⟩
abbrev main_v132 : Ref sig .tc := ⟨.hbm, 187, rfl⟩
abbrev main_c_33 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_34 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_call4_cst : Ref sig .tc := ⟨.hbm, 204, rfl⟩
abbrev main_call4_v0 : Ref sig .tc := ⟨.hbm, 205, rfl⟩
abbrev main_v147 : Ref sig .tc := ⟨.hbm, 206, rfl⟩
abbrev main_v148 : Ref sig .tc := ⟨.hbm, 207, rfl⟩
abbrev main_cst_35 : Ref sig .tc := ⟨.hbm, 208, rfl⟩
abbrev main_v149 : Ref sig .tc := ⟨.hbm, 209, rfl⟩
abbrev main_cst_36 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_37 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_38 : Ref sig .tc := ⟨.hbm, 218, rfl⟩
abbrev main_call5_v0 : Ref sig .tc := ⟨.hbm, 219, rfl⟩
abbrev main_call5_v1 : Ref sig .tc := ⟨.hbm, 220, rfl⟩
abbrev main_v156 : Ref sig .tc := ⟨.hbm, 221, rfl⟩
abbrev main_c_39 : Ref sig .tc := ⟨.hbm, 222, rfl⟩
abbrev main_v157 : Ref sig .tc := ⟨.hbm, 223, rfl⟩
abbrev main_v158 : Ref sig .tc := ⟨.hbm, 224, rfl⟩
abbrev main_c_40 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_c_41 : Ref sig .tc := ⟨.hbm, 231, rfl⟩
abbrev main_v164 : Ref sig .tc := ⟨.hbm, 232, rfl⟩
abbrev main_v165 : Ref sig .tc := ⟨.hbm, 233, rfl⟩
abbrev main_c_42 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_c_43 : Ref sig .tc := ⟨.hbm, 241, rfl⟩
abbrev main_v172 : Ref sig .tc := ⟨.hbm, 242, rfl⟩
abbrev main_v173 : Ref sig .tc := ⟨.hbm, 243, rfl⟩
abbrev main_c_44 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_cst_45 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_cst_46 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_cst_47 : Ref sig .tc := ⟨.hbm, 264, rfl⟩
abbrev main_v191 : Ref sig .tc := ⟨.hbm, 265, rfl⟩
abbrev main_cst_48 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_cst_49 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_cst_50 : Ref sig .tc := ⟨.hbm, 283, rfl⟩
abbrev main_v207 : Ref sig .tc := ⟨.hbm, 284, rfl⟩
abbrev main_v208 : Ref sig .tc := ⟨.hbm, 285, rfl⟩
abbrev main_cst_51 : Ref sig .tc := ⟨.hbm, 286, rfl⟩
abbrev main_v209 : Ref sig .tc := ⟨.hbm, 287, rfl⟩
abbrev main_v210 : Ref sig .tc := ⟨.hbm, 288, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  concatenates_S512x64_S512x64_S512x128_d1 : Shape.Concatenates [S512x64, S512x64] S512x128 1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x128_S128x1_S512x1_1_0_0_1_n_n_wf : DotDims.WF S512x128 S128x1 S512x1 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KReg01.lean ====
/- Regions 0 and 1 at any float instance: each window's block at a grid point, what the body leaves in the output block, and the body's obligation. -/
import proofs.«416730_j309237645609_2_alg».proof.Proof.Gen.Kernel.Launch
import proofs.«416730_j309237645609_2_alg».proof.Proof.Gen.Kernel.Skeleton
import proofs.«416730_j309237645609_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

def out0_3 (x0 : Vec F S5000x64 .f32) (x1 : Vec F S64x128 .f32) (x2 : Vec F S1x128 .f32) : Vec F S5000x128 .f32 :=
  View.canon [⟨r0_3, k0_pay1 (View.ld x0 r0_0) (View.ld x1 r0_1) (View.ld x2 r0_2)⟩]

theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

theorem sound_kernel0 (c : Dev nD) (E : Set ℕ) (i : grid0.Coords) (arg0 : Memref sig .tc .vmem S5000x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x64 .f32) (x1 : Vec F S64x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_relu_kernel i arg0 harg0 arg1 harg1 arg2 harg2 arg3 harg3) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S128x64 := Rect.unit (s := S128x64) ![0, 0] S128x64.size inb_S128x64_S128x64_0_0
abbrev r1_2 : Rect S5000x64 := Rect.unit (s := S5000x64) ![0, 0] S5000x64.size inb_S5000x64_S5000x64_0_0

def out1_2 (x0 : Vec F S5000x128 .f32) (x1 : Vec F S128x64 .f32) : Vec F S5000x64 .f32 :=
  View.canon [⟨r1_2, k1_pay1 (View.ld x0 r1_0) (View.ld x1 r1_1)⟩]

theorem cover1_2 (p0 : Vec F S5000x64 .f32) (y : S5000x64.Idx) :
    ∃ pc ∈ ([⟨r1_2, p0⟩] : List (View.Piece (Elt F) S5000x64 .f32)), y ∈ pc.1.set :=
  View.cover_of_tiled [⟨r1_2, p0⟩] S5000x64.size (by rfl) y

theorem sound_kernel1 (c : Dev nD) (E : Set ℕ) (i : grid1.Coords) (arg0 : Memref sig .tc .vmem S5000x128 .f32) (harg0 : arg0.IsWhole) (arg1 : Memref sig .tc .vmem S128x64 .f32) (harg1 : arg1.IsWhole) (arg2 : Memref sig .tc .vmem S5000x64 .f32) (harg2 : arg2.IsWhole)
    (x0 : Vec F S5000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__matmul_kernel i arg0 harg0 arg1 harg1 arg2 harg2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KSegs.lean ====
/- The three regions as segments of @main: the contents each is entered from and what it leaves, stage by stage. -/
import proofs.«416730_j309237645609_2_alg».proof.Proof.KRunCond
import proofs.«416730_j309237645609_2_alg».proof.Proof.KReg01
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (d2 : (V : (c : Dev nD) → (b : Ref sig .tc) → Buf (Elt F) ((c : Thread nD τ).loc b)) → (c : Dev nD) →
  Dat τ (Elt F) Unit ℕ (UR sig nD τ) ℕ cfg2 c)

abbrev E5 : (c : Dev nD) → (b : Ref sig .tc) → Buf (Elt F) ((c : Thread nD τ).loc b) := fun c b => V5 m c b

def o6 (c : Dev nD) : Buf (Elt F) ((c : Thread nD τ).loc main_v88) := (dat0 (E5 m) c).arrAt 3 cfg0.N

abbrev W6 (c : Dev nD) : Valuation τ sig (Elt F) := Function.update (V5 m c) main_v88 (o6 m c)
abbrev E6 : (c : Dev nD) → (b : Ref sig .tc) → Buf (Elt F) ((c : Thread nD τ).loc b) := fun c b => W6 m c b
abbrev W7 (c : Dev nD) : Valuation τ sig (Elt F) := StableHlo.after hostOps1 (W6 m c)
abbrev E7 : (c : Dev nD) → (b : Ref sig .tc) → Buf (Elt F) ((c : Thread nD τ).loc b) := fun c b => W7 m c b

def o8 (c : Dev nD) : Buf (Elt F) ((c : Thread nD τ).loc main_v91) := (dat1 (E7 m) c).arrAt 2 cfg1.N
abbrev W8 (c : Dev nD) : Valuation τ sig (Elt F) := Function.update (W7 m c) main_v91 (o8 m c)
abbrev E8 : (c : Dev nD) → (b : Ref sig .tc) → Buf (Elt F) ((c : Thread nD τ).loc b) := fun c b => W8 m c b
abbrev W9 (c : Dev nD) : Valuation τ sig (Elt F) := StableHlo.after hostOps2 (W8 m c)
abbrev E9 : (c : Dev nD) → (b : Ref sig .tc) → Buf (Elt F) ((c : Thread nD τ).loc b) := fun c b => W9 m c b

def o10 (c : Dev nD) : Buf (Elt F) ((c : Thread nD τ).loc main_v131) := (d2 (E9 m) c).arrAt 2 cfg2.N
abbrev W10 (c : Dev nD) : Valuation τ sig (Elt F) := Function.update (W9 m c) main_v131 (o10 m d2 c)
abbrev E10 : (c : Dev nD) → (b : Ref sig .tc) → Buf (Elt F) ((c : Thread nD τ).loc b) := fun c b => W10 m d2 c b
abbrev W11 (c : Dev nD) : Valuation τ sig (Elt F) := StableHlo.after hostOps3 (W10 m d2 c)

def outs : Outs (F := F) := fun _ r c =>
  if h : r = main_v88 then h ▸ o6 m c
  else if h : r = main_v91 then h ▸ o8 m c
  else if h : r = main_v131 then h ▸ o10 m d2 c
  else V0 m c r

theorem outs_v88 (c : Dev nD) : outs m d2 6 main_v88 c = o6 m c := by
  unfold outs; rw [dif_pos rfl]
theorem outs_v91 (c : Dev nD) : outs m d2 8 main_v91 c = o8 m c := by
  unfold outs; rw [dif_neg (by decide), dif_pos rfl]
theorem outs_v131 (c : Dev nD) : outs m d2 10 main_v131 c = o10 m d2 c := by
  unfold outs; rw [dif_neg (by decide), dif_neg (by decide), dif_pos rfl]

theorem V6_eq (c : Dev nD) : V6 m (outs m d2) c = W6 m c := by
  show Function.update (V5 m c) main_v88 (outs m d2 6 main_v88 c) = _; rw [outs_v88]
theorem V7_eq (c : Dev nD) : V7 m (outs m d2) c = W7 m c := by
  show StableHlo.after hostOps1 (V6 m (outs m d2) c) = _; rw [V6_eq]
theorem V8_eq (c : Dev nD) : V8 m (outs m d2) c = W8 m c := by
  show Function.update (V7 m (outs m d2) c) main_v91 (outs m d2 8 main_v91 c) = _; rw [V7_eq, outs_v91]
theorem V9_eq (c : Dev nD) : V9 m (outs m d2) c = W9 m c := by
  show StableHlo.after hostOps2 (V8 m (outs m d2) c) = _; rw [V8_eq]
theorem V10_eq (c : Dev nD) : V10 m (outs m d2) c = W10 m d2 c := by
  show Function.update (V9 m (outs m d2) c) main_v131 (outs m d2 10 main_v131 c) = _; rw [V9_eq, outs_v131]
theorem V11_eq (c : Dev nD) : V11 m (outs m d2) c = W11 m d2 c := by
  show StableHlo.after hostOps3 (V10 m (outs m d2) c) = _; rw [V10_eq]

def pdats : (p : Fin 3) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => d2 (E9 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0_in (c : Dev nD) (w : Fin cfg0.W) (hw : (cfg0.win w).isOut = false) (b : Ref sig .tc) (hb : Pipeline.arrRef spec0 w = b)
    (hne : b ≠ main_v88) : (dat0 (E5 m) c).arrAt w cfg0.N = E6 m c (Pipeline.arrRef spec0 w) := by
  rw [(dat0 (E5 m) c).arrAt_in w hw _, A_eq0]
  subst hb
  show V5 m c (Proc.devRef .tc _) = Function.update (V5 m c) (Proc.devRef .tc main_v88) (o6 m c) (Proc.devRef .tc _)
  rw [Function.update_of_ne (StableHlo.devRef_ne_of_ne hne)]
theorem hF0_out (c : Dev nD) : (dat0 (E5 m) c).arrAt 3 cfg0.N = E6 m c (Pipeline.arrRef spec0 3) := by
  show _ = Function.update (V5 m c) (Proc.devRef .tc main_v88) (o6 m c) (Proc.devRef .tc main_v88)
  rw [Function.update_self]; rfl
theorem hF0 (c : Dev nD) (w : Fin cfg0.W) : (dat0 (E5 m) c).arrAt w cfg0.N = E6 m c (Pipeline.arrRef spec0 w) :=
  match w with
  | ⟨0, _⟩ => hF0_in m c 0 rfl main_v86 rfl (by decide)
  | ⟨1, _⟩ => hF0_in m c 1 rfl main_arg6 rfl (by decide)
  | ⟨2, _⟩ => hF0_in m c 2 rfl main_v87 rfl (by decide)
  | ⟨3, _⟩ => hF0_out m c
  | ⟨_ + 4, h⟩ => absurd h (Nat.not_lt.2 (Nat.le_add_left _ _))

theorem hrest0 (c : Dev nD) : ∀ b : Ref sig .tc, b ∉ Finset.univ.image (Pipeline.arrRef spec0) → E6 m c b = E5 m c b :=
  fun b hb => Function.update_of_ne (StableHlo.devRef_ne_of_ne fun e => hb (Finset.mem_image.mpr ⟨3, Finset.mem_univ _, e.symm⟩)) _ _

set_option backward.isDefEq.respectTransparency.types false in

def reg0 : Pipeline.RegionSeg (pcfgs (F := F)) adm (pdats m d2) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m d2) launch0.win launch0.arr_whole c
      ((pdats m d2 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d2 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d2 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m d2) ((pdats m d2 0 c).share_full fun _ => rfl)
      (E5 m c) (E6 m c) ((pdats m d2 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1_in (c : Dev nD) (w : Fin cfg1.W) (hw : (cfg1.win w).isOut = false) (b : Ref sig .tc) (hb : Pipeline.arrRef spec1 w = b)
    (hne : b ≠ main_v91) : (dat1 (E7 m) c).arrAt w cfg1.N = E8 m c (Pipeline.arrRef spec1 w) := by
  rw [(dat1 (E7 m) c).arrAt_in w hw _, A_eq1]
  subst hb
  show W7 m c (Proc.devRef .tc _) = Function.update (W7 m c) (Proc.devRef .tc main_v91) (o8 m c) (Proc.devRef .tc _)
  rw [Function.update_of_ne (StableHlo.devRef_ne_of_ne hne)]
theorem hF1_out (c : Dev nD) : (dat1 (E7 m) c).arrAt 2 cfg1.N = E8 m c (Pipeline.arrRef spec1 2) := by
  show _ = Function.update (W7 m c) (Proc.devRef .tc main_v91) (o8 m c) (Proc.devRef .tc main_v91)
  rw [Function.update_self]; rfl
theorem hF1 (c : Dev nD) (w : Fin cfg1.W) : (dat1 (E7 m) c).arrAt w cfg1.N = E8 m c (Pipeline.arrRef spec1 w) :=
  match w with
  | ⟨0, _⟩ => hF1_in m c 0 rfl main_v88 rfl (by decide)
  | ⟨1, _⟩ => hF1_in m c 1 rfl main_arg8 rfl (by decide)
  | ⟨2, _⟩ => hF1_out m c
  | ⟨_ + 3, h⟩ => absurd h (Nat.not_lt.2 (Nat.le_add_left _ _))

theorem hrest1 (c : Dev nD) : ∀ b : Ref sig .tc, b ∉ Finset.univ.image (Pipeline.arrRef spec1) → E8 m c b = E7 m c b :=
  fun b hb => Function.update_of_ne (StableHlo.devRef_ne_of_ne fun e => hb (Finset.mem_image.mpr ⟨2, Finset.mem_univ _, e.symm⟩)) _ _

set_option backward.isDefEq.respectTransparency.types false in

def reg1 : Pipeline.RegionSeg (pcfgs (F := F)) adm (pdats m d2) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m d2) launch1.win launch1.arr_whole c
      ((pdats m d2 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d2 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m d2 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m d2) ((pdats m d2 1 c).share_full fun _ => rfl)
      (E7 m c) (E8 m c) ((pdats m d2 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg2.lean ====
/- Region 2 at any float instance: fifty grid points share an accumulator, reset at the first, updated at each, copied out at the last; three control cases and the invariant that carries the accumulator. -/
import proofs.«416730_j309237645609_2_alg».proof.Proof.Gen.Kernel.Launch
import proofs.«416730_j309237645609_2_alg».proof.Proof.Gen.Kernel.Skeleton
import proofs.«416730_j309237645609_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 50 = 0 :=
  (by decide +kernel : ∀ t : Fin grid2.N, cond2_0 (grid2.coords t) ↔ t.val % 50 = 0)

abbrev cond2_1 (i : grid2.Coords) : Prop := k2_cond2 i = 1#1

theorem hcond2_1 : ∀ t : Fin cfg2.N, cond2_1 (grid2.coords t) ↔ t.val % 50 = 49 :=
  (by decide +kernel : ∀ t : Fin grid2.N, cond2_1 (grid2.coords t) ↔ t.val % 50 = 49)

theorem hz2 : (![0, 0] : Fin 2 → ℕ) = fun _ => 0 := by funext a; fin_cases a <;> rfl

theorem cover2 (w : Vec F S1024x64 .f32) (L : List (View.Piece (Elt F) S1024x64 .f32)) (y : S1024x64.Idx) :
    ∃ pc ∈ ((⟨Rect.unit ![0, 0] S1024x64.size inb_S1024x64_S1024x64_0_0, w⟩ : View.Piece (Elt F) S1024x64 .f32) :: L), y ∈ pc.1.set :=
  ⟨_, List.mem_cons.mpr (Or.inl rfl), View.mem_set_unit_zero hz2 inb_S1024x64_S1024x64_0_0 y⟩

theorem kernel2_A (c : Dev nD) (i : grid2.Coords)
    (arg1 : Memref sig .tc .vmem S2000x64 .f32) (harg1 : arg1.IsWhole)
    (arg2 : Memref sig .tc .vmem S2000x1 .i32) (harg2 : arg2.IsWhole)
    (arg3 : Memref sig .tc .vmem S1024x64 .f32) (harg3 : arg3.IsWhole)
    (arg4 : Memref sig .tc .vmem S1024x64 .f32) (harg4 : arg4.IsWhole)
    (hc0 : cond2_0 i) (hc1 : ¬cond2_1 i)
    (x0 : Vec F S2000x64 .f32) (x1 : Vec F S2000x1 .i32) (xi : Vec F S1024x64 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (k2_pay2 x1 x0 k2_pay1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [View.read_writes_eq_canon _ _ _ (cover2 _ _)]
  rw [View.canon_cons_unit_zero hz2]
  simp only [View.readAt_eq_ld, harg1.read_unread, harg2.read_unread, View.readCov_unit_zero (S := S1024x64) _ hz2,
    View.ld_unit_zero (S := S2000x1) hz2, View.ld_unit_zero (S := S2000x64) hz2, View.ld_unit_zero (S := S1024x64) hz2]

theorem kernel2_B (c : Dev nD) (i : grid2.Coords)
    (arg1 : Memref sig .tc .vmem S2000x64 .f32) (harg1 : arg1.IsWhole)
    (arg2 : Memref sig .tc .vmem S2000x1 .i32) (harg2 : arg2.IsWhole)
    (arg3 : Memref sig .tc .vmem S1024x64 .f32) (harg3 : arg3.IsWhole)
    (arg4 : Memref sig .tc .vmem S1024x64 .f32) (harg4 : arg4.IsWhole)
    (hc0 : ¬cond2_0 i) (hc1 : ¬cond2_1 i)
    (x0 : Vec F S2000x64 .f32) (x1 : Vec F S2000x1 .i32) (xi : Vec F S1024x64 .f32) (xs : Vec F S1024x64 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi ∗ owns (c : Thread nD τ) arg4 fullShare (k2_pay2 x1 x0 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [View.read_writes_eq_canon _ _ _ (cover2 _ _)]
  rw [View.canon_unit_zero hz2]
  simp only [View.readAt_eq_ld, harg1.read_unread, harg2.read_unread, harg4.read_unread,
    View.ld_unit_zero (S := S2000x1) hz2, View.ld_unit_zero (S := S2000x64) hz2, View.ld_unit_zero (S := S1024x64) hz2]

theorem kernel2_C (c : Dev nD) (i : grid2.Coords)
    (arg1 : Memref sig .tc .vmem S2000x64 .f32) (harg1 : arg1.IsWhole)
    (arg2 : Memref sig .tc .vmem S2000x1 .i32) (harg2 : arg2.IsWhole)
    (arg3 : Memref sig .tc .vmem S1024x64 .f32) (harg3 : arg3.IsWhole)
    (arg4 : Memref sig .tc .vmem S1024x64 .f32) (harg4 : arg4.IsWhole)
    (hc0 : ¬cond2_0 i) (hc1 : cond2_1 i)
    (x0 : Vec F S2000x64 .f32) (x1 : Vec F S2000x1 .i32) (xs : Vec F S1024x64 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k2_pay2 x1 x0 xs) ∗ owns (c : Thread nD τ) arg4 fullShare (k2_pay2 x1 x0 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (cover2 _ _)]
    rw [View.canon_unit_zero hz2]
    simp only [View.readAt_eq_ld, harg1.read_unread, harg2.read_unread, harg4.read_unread, View.readCov_unit_zero (S := S1024x64) _ hz2,
      View.ld_unit_zero (S := S2000x1) hz2, View.ld_unit_zero (S := S2000x64) hz2, View.ld_unit_zero (S := S1024x64) hz2]
  iexists _; isplitr
  swap; · iexact HS0
  ipureintro
  sl_unfold_words
  rw [View.read_writes_eq_canon _ _ _ (cover2 _ _)]
  rw [View.canon_unit_zero hz2]
  simp only [View.readAt_eq_ld, harg1.read_unread, harg2.read_unread, harg4.read_unread,
    View.ld_unit_zero (S := S2000x1) hz2, View.ld_unit_zero (S := S2000x64) hz2, View.ld_unit_zero (S := S1024x64) hz2]

abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)

abbrev scM2_0 : Memref sig .tc .vmem S1024x64 .f32 := Memref.whole cc2_scratch0

def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))

theorem PhiA2_split (c : Dev nD) :
    (Pipeline.ΦA spec2 c : sProp 𝕄)
      ⊢ iprop(iprop(others2 (F := F) c ∗ (∃ d, owns (c : Thread nD τ) scM2_0 fullShare d)) ∗ (∃ r, prngReg c r)) := by
  unfold Pipeline.ΦA others2; rw [scopedRest2_eq]; simp only [scM2_0, owns_whole]
  iintro ⟨⟨H1, H2, H3, H4, H5, H6, H7, H8, H9, H10, H11, HS⟩, Hg⟩
  isplitr [Hg]
  · isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexact HS
  · iexact Hg

theorem PhiA2_join (c : Dev nD) :
    iprop(iprop(others2 (F := F) c ∗ (∃ d, owns (c : Thread nD τ) scM2_0 fullShare d)) ∗ (∃ r, prngReg c r))
      ⊢ (Pipeline.ΦA spec2 c : sProp 𝕄) := by
  unfold Pipeline.ΦA others2; rw [scopedRest2_eq]; simp only [scM2_0, owns_whole]
  iintro ⟨⟨⟨H1, H2, H3, H4, H5, H6, H7, H8, H9, H10, H11⟩, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  · iexact Hg

theorem liveAt2_0 : ∀ t : Fin cfg2.N, cfg2.idle 0 (grid2.coords t) = false := fun _ => rfl
theorem liveAt2_1 : ∀ t : Fin cfg2.N, cfg2.idle 1 (grid2.coords t) = false := fun _ => rfl

theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel

theorem liveAt2_2 : ∀ t : Fin cfg2.N, cond2_1 (grid2.coords t) → cfg2.idle 2 (grid2.coords t) = false := by decide +kernel

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

def acc2 (c : Dev nD) : (n : ℕ) → n < cfg2.N → Vec F S1024x64 .f32
  | 0, hn => k2_pay2 (iblk2 V c 1 ⟨0, hn⟩) (iblk2 V c 0 ⟨0, hn⟩) k2_pay1
  | n + 1, hn => k2_pay2 (iblk2 V c 1 ⟨n + 1, hn⟩) (iblk2 V c 0 ⟨n + 1, hn⟩) (acc2 c n (Nat.lt_of_succ_lt hn))

theorem acc2_zero (c : Dev nD) (hn : 0 < cfg2.N) :
    acc2 V c 0 hn = k2_pay2 (iblk2 V c 1 ⟨0, hn⟩) (iblk2 V c 0 ⟨0, hn⟩) k2_pay1 := rfl
theorem acc2_succ (c : Dev nD) (n : ℕ) (hn : n + 1 < cfg2.N) :
    acc2 V c (n + 1) hn = k2_pay2 (iblk2 V c 1 ⟨n + 1, hn⟩) (iblk2 V c 0 ⟨n + 1, hn⟩) (acc2 V c n (Nat.lt_of_succ_lt hn)) := rfl

theorem acc2_first (c : Dev nD) (t : Fin cfg2.N) (hz : t.val = 0) :
    acc2 V c t.val t.isLt = k2_pay2 (iblk2 V c 1 t) (iblk2 V c 0 t) k2_pay1 := by
  obtain ⟨n, hn⟩ := t
  cases n with
  | zero => rfl
  | succ n => exact absurd hz (Nat.succ_ne_zero n)

theorem acc2_pos (c : Dev nD) (t : Fin cfg2.N) (hz : t.val ≠ 0) :
    acc2 V c t.val t.isLt = k2_pay2 (iblk2 V c 1 t) (iblk2 V c 0 t)
      (acc2 V c (t.val - 1) (Nat.lt_of_le_of_lt (Nat.sub_le _ _) t.isLt)) := by
  obtain ⟨n, hn⟩ := t
  cases n with
  | zero => exact absurd rfl hz
  | succ n => rfl

def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare (acc2 V c n hn)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare (acc2 V c (n - 1) (by omega))) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem after2_2_last (c : Dev nD) (t : Fin cfg2.N) (ht : t.val = 49) : (dat2 V c).after 2 t = acc2 V c t.val t.isLt :=
  after2_2 V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 50 = 0
  ·
    have h1 : ¬t.val % 50 = 49 := by omega
    have hz : t.val = 0 := by omega
    rw [Dat.leavesExact_idle (dat2 V c) 2 t (idleAt2_2 t (fun h => h1 ((hcond2_1 t).mp h))) (noFlush2_2 t (fun h => h1 ((hcond2_1 t).mp h)))]
    rw [acc2_first V c t hz]
    rw [PhiS2_castSucc V c t, PhiS2_zero V c _ _ hz]
    iintro ⟨HΦ, Ho, ⟨%d0, H0⟩, ⟨%d1, H1⟩, ⟨%d2, H2⟩⟩
    icases (PhiA2_split (F := F) c) $$ HΦ with ⟨⟨HR, HS0⟩, Hg⟩
    iapply (kernel2_A c (grid2.coords t) _ _ _ _ _ _ _ _ ((hcond2_0 t).mpr h0) (fun h => h1 ((hcond2_1 t).mp h)) (iblk2 V c 0 t) (iblk2 V c 1 t) _ Set.univ _)
    isplitl [H0]; · iexact H0
    isplitl [H1]; · iexact H1
    isplitl [H2]; · iexact H2
    isplitl [HS0]; · iexact HS0
    iintro ⟨H0, H1, H2, HS0⟩
    isplitl [HR HS0 Hg]
    · isplitr [Hg]
      · isplitl [HR]; · iexact HR
        iexact HS0
      · iexact Hg
    isplitl [Ho]; · iexact Ho
    isplitl [H0]; · iexact H0
    isplitl [H1]; · iexact H1
    iexists _; iexact H2
  · have hz : t.val ≠ 0 := fun e => h0 (by rw [e])
    rw [acc2_pos V c t hz]
    rw [PhiS2_castSucc V c t, PhiS2_pos V c _ _ hz]
    by_cases h1 : t.val % 50 = 49
    ·
      rw [show (dat2 V c).leavesExact 2 t = owns (c : Thread nD τ) (ms2_2 t) fullShare ((dat2 V c).after 2 t) from by
        unfold Dat.leavesExact; rw [liveAt2_2 t ((hcond2_1 t).mpr h1)], after2_2]
      rw [acc2_pos V c t hz]
      iintro ⟨⟨⟨HR, HS0⟩, Hg⟩, Ho, ⟨%d0, H0⟩, ⟨%d1, H1⟩, ⟨%d2, H2⟩⟩
      iapply (kernel2_C c (grid2.coords t) _ _ _ _ _ _ _ _ (fun h => h0 ((hcond2_0 t).mp h)) ((hcond2_1 t).mpr h1) (iblk2 V c 0 t) (iblk2 V c 1 t) _ Set.univ _)
      isplitl [H0]; · iexact H0
      isplitl [H1]; · iexact H1
      isplitl [H2]; · iexists _; iexact H2
      isplitl [HS0]; · iexact HS0
      iintro ⟨H0, H1, H2, HS0⟩
      isplitl [HR HS0 Hg]
      · isplitr [Hg]
        · isplitl [HR]; · iexact HR
          iexact HS0
        · iexact Hg
      isplitl [Ho]; · iexact Ho
      isplitl [H0]; · iexact H0
      isplitl [H1]; · iexact H1
      iexact H2
    ·
      rw [Dat.leavesExact_idle (dat2 V c) 2 t (idleAt2_2 t (fun h => h1 ((hcond2_1 t).mp h))) (noFlush2_2 t (fun h => h1 ((hcond2_1 t).mp h)))]
      iintro ⟨⟨⟨HR, HS0⟩, Hg⟩, Ho, ⟨%d0, H0⟩, ⟨%d1, H1⟩, ⟨%d2, H2⟩⟩
      iapply (kernel2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS0]; · iexact HS0
      iintro ⟨H0, H1, H2, HS0⟩
      isplitl [HR HS0 Hg]
      · isplitr [Hg]
        · isplitl [HR]; · iexact HR
          iexact HS0
        · iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨⟨HR, HS0⟩, Hg⟩
  iapply (PhiA2_join (F := F) c)
  isplitr [Hg]
  · isplitl [HR]; · iexact HR
    iexists _; iexact HS0
  · iexact Hg

theorem hout2 (c : Dev nD) : (dat2 V c).Φ (Fin.last cfg2.N) ⊢ Pipeline.ΦA spec2 c :=
  Phi_out2 V c _ (by rw [Fin.val_last]; have : cfg2.N = 50 := N_2; omega)

end Region2

end Cert.Kernel.Hand

end
-- ==== Proof.KRun.lean ====
/- Region 2 as a segment, then @main from the launch to the return: every buffer's final contents, and the frame. -/
import proofs.«416730_j309237645609_2_alg».proof.Proof.KSegs
import proofs.«416730_j309237645609_2_alg».proof.Proof.KReg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hF2_in (c : Dev nD) (w : Fin cfg2.W) (hw : (cfg2.win w).isOut = false) (b : Ref sig .tc) (hb : Pipeline.arrRef spec2 w = b)
    (hne : b ≠ main_v131) : (dat2 (E9 m) c).arrAt w cfg2.N = E10 m dat2 c (Pipeline.arrRef spec2 w) := by
  rw [(dat2 (E9 m) c).arrAt_in w hw _, A_eq2]
  subst hb
  show W9 m c (Proc.devRef .tc _) = Function.update (W9 m c) (Proc.devRef .tc main_v131) (o10 m dat2 c) (Proc.devRef .tc _)
  rw [Function.update_of_ne (StableHlo.devRef_ne_of_ne hne)]
theorem hF2_out (c : Dev nD) : (dat2 (E9 m) c).arrAt 2 cfg2.N = E10 m dat2 c (Pipeline.arrRef spec2 2) := by
  show _ = Function.update (W9 m c) (Proc.devRef .tc main_v131) (o10 m dat2 c) (Proc.devRef .tc main_v131)
  rw [Function.update_self]; rfl
theorem hF2 (c : Dev nD) (w : Fin cfg2.W) : (dat2 (E9 m) c).arrAt w cfg2.N = E10 m dat2 c (Pipeline.arrRef spec2 w) :=
  match w with
  | ⟨0, _⟩ => hF2_in m c 0 rfl main_v126 rfl (by decide)
  | ⟨1, _⟩ => hF2_in m c 1 rfl main_v130 rfl (by decide)
  | ⟨2, _⟩ => hF2_out m c
  | ⟨_ + 3, h⟩ => absurd h (Nat.not_lt.2 (Nat.le_add_left _ _))

theorem hrest2 (c : Dev nD) : ∀ b : Ref sig .tc, b ∉ Finset.univ.image (Pipeline.arrRef spec2) → E10 m dat2 c b = E9 m c b :=
  fun b hb => Function.update_of_ne (StableHlo.devRef_ne_of_ne fun e => hb (Finset.mem_image.mpr ⟨2, Finset.mem_univ _, e.symm⟩)) _ _

set_option backward.isDefEq.respectTransparency.types false in

def reg2 : Pipeline.RegionSeg (pcfgs (F := F)) adm (pdats m dat2) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m dat2 c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m dat2) launch2.win launch2.arr_whole c
      ((pdats m dat2 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E9 m) c)
    unfold Pipeline.ΦA
    iintro ⟨Hp, -, Hr⟩
    isplitl [Hr]; · iexact Hr
    iexact Hp
  hout c := by
    rw [Pipeline.ownSems0_none]
    refine BIBase.Entails.trans (hout2 (E9 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m dat2) ((pdats m dat2 2 c).share_full fun _ => rfl)
      (E9 m c) (E10 m dat2 c) ((pdats m dat2 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in

theorem run_all : θ_run defs (onTc (τ := τ) (main (F := F))) ⟨m, fun _ => 0, ρ⟩ (fun r => ∀ c : Dev nD,
    ∀ b ∈ Pipeline.ucRefs τ sig, r.2.mem ((c : Thread nD τ).1, b) = W11 m dat2 c b) :=
  (θ_run defs _ _).mono (fun r h c b hb => (h c b hb).trans (congrFun (V11_eq m dat2 c) b))
    (run_cond m emb₁ () 𝒱₀ L lv (fun _ _ => rfl) ρ (outs m dat2) (pdats m dat2) 0 (fun _ => iprop(emp))
      (initOf (Pipeline.cells cfgs cellOf_inj) (Pipeline.launchToks cfgs cellOf_inj)) hu₀
      (fun _ c => R c) (hE0 ρ) (fun c => by iintro ⟨-, HO⟩; iexact HO)
      (reg0 m dat2) (fun c => .rfl) (fun c => by rw [V6_eq]; exact .rfl)
      (reg1 m dat2) (fun c => by rw [V7_eq]; exact .rfl) (fun c => by rw [V8_eq]; exact .rfl)
      (reg2 m) (fun c => by rw [V9_eq]; exact .rfl) (fun c => by rw [V10_eq]; exact .rfl))

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m dat2) (pdats m dat2) 0 (fun _ => iprop(emp))
    (initOf (Pipeline.cells cfgs cellOf_inj) (Pipeline.launchToks cfgs cellOf_inj)) hu₀
    (fun _ c => R c) (hE0 ρ) (fun c => by iintro ⟨-, HO⟩; iexact HO)
    (reg0 m dat2) (fun c => .rfl) (fun c => by rw [V6_eq]; exact .rfl)
    (reg1 m dat2) (fun c => by rw [V7_eq]; exact .rfl) (fun c => by rw [V8_eq]; exact .rfl)
    (reg2 m) (fun c => by rw [V9_eq]; exact .rfl) (fun c => by rw [V10_eq]; exact .rfl)

end Cert.Kernel.Hand

end
-- ==== Proof.KIReg01.lean ====
/- Regions 0 and 1 at any float instance: each window's block at a grid point, what the body leaves in the output block, and the body's obligation. -/
import proofs.«416730_j309237645609_2_alg».proof.Proof.Gen.KernelIdeal.Launch
import proofs.«416730_j309237645609_2_alg».proof.Proof.Gen.KernelIdeal.Skeleton
import proofs.«416730_j309237645609_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

def out0_3 (x0 : Vec F S5000x64 .f32) (x1 : Vec F S64x128 .f32) (x2 : Vec F S1x128 .f32) : Vec F S5000x128 .f32 :=
  View.canon [⟨r0_3, k0_pay1 (View.ld x0 r0_0) (View.ld x1 r0_1) (View.ld x2 r0_2)⟩]

theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

theorem sound_kernel0 (c : Dev nD) (E : Set ℕ) (i : grid0.Coords) (arg0 : Memref sig .tc .vmem S5000x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x64 .f32) (x1 : Vec F S64x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_bias_relu_kernel i arg0 harg0 arg1 harg1 arg2 harg2 arg3 harg3) K := by
  simp only [cc0__matmul_bias_relu_kernel_eq_skeleton]; unfold cc0__matmul_bias_relu_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x128 := Rect.unit (s := S5000x128) ![0, 0] S5000x128.size inb_S5000x128_S5000x128_0_0
abbrev r1_1 : Rect S128x64 := Rect.unit (s := S128x64) ![0, 0] S128x64.size inb_S128x64_S128x64_0_0
abbrev r1_2 : Rect S5000x64 := Rect.unit (s := S5000x64) ![0, 0] S5000x64.size inb_S5000x64_S5000x64_0_0

def out1_2 (x0 : Vec F S5000x128 .f32) (x1 : Vec F S128x64 .f32) : Vec F S5000x64 .f32 :=
  View.canon [⟨r1_2, k1_pay1 (View.ld x0 r1_0) (View.ld x1 r1_1)⟩]

theorem cover1_2 (p0 : Vec F S5000x64 .f32) (y : S5000x64.Idx) :
    ∃ pc ∈ ([⟨r1_2, p0⟩] : List (View.Piece (Elt F) S5000x64 .f32)), y ∈ pc.1.set :=
  View.cover_of_tiled [⟨r1_2, p0⟩] S5000x64.size (by rfl) y

theorem sound_kernel1 (c : Dev nD) (E : Set ℕ) (i : grid1.Coords) (arg0 : Memref sig .tc .vmem S5000x128 .f32) (harg0 : arg0.IsWhole) (arg1 : Memref sig .tc .vmem S128x64 .f32) (harg1 : arg1.IsWhole) (arg2 : Memref sig .tc .vmem S5000x64 .f32) (harg2 : arg2.IsWhole)
    (x0 : Vec F S5000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__matmul_kernel i arg0 harg0 arg1 harg1 arg2 harg2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KISegs.lean ====
/- The three regions as segments of @main: the contents each is entered from and what it leaves, stage by stage. -/
import proofs.«416730_j309237645609_2_alg».proof.Proof.KIRunCond
import proofs.«416730_j309237645609_2_alg».proof.Proof.KIReg01
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (d2 : (V : (c : Dev nD) → (b : Ref sig .tc) → Buf (Elt F) ((c : Thread nD τ).loc b)) → (c : Dev nD) →
  Dat τ (Elt F) Unit ℕ (UR sig nD τ) ℕ cfg2 c)

abbrev E5 : (c : Dev nD) → (b : Ref sig .tc) → Buf (Elt F) ((c : Thread nD τ).loc b) := fun c b => V5 m c b

def o6 (c : Dev nD) : Buf (Elt F) ((c : Thread nD τ).loc main_v88) := (dat0 (E5 m) c).arrAt 3 cfg0.N

abbrev W6 (c : Dev nD) : Valuation τ sig (Elt F) := Function.update (V5 m c) main_v88 (o6 m c)
abbrev E6 : (c : Dev nD) → (b : Ref sig .tc) → Buf (Elt F) ((c : Thread nD τ).loc b) := fun c b => W6 m c b
abbrev W7 (c : Dev nD) : Valuation τ sig (Elt F) := StableHlo.after hostOps1 (W6 m c)
abbrev E7 : (c : Dev nD) → (b : Ref sig .tc) → Buf (Elt F) ((c : Thread nD τ).loc b) := fun c b => W7 m c b

def o8 (c : Dev nD) : Buf (Elt F) ((c : Thread nD τ).loc main_v91) := (dat1 (E7 m) c).arrAt 2 cfg1.N
abbrev W8 (c : Dev nD) : Valuation τ sig (Elt F) := Function.update (W7 m c) main_v91 (o8 m c)
abbrev E8 : (c : Dev nD) → (b : Ref sig .tc) → Buf (Elt F) ((c : Thread nD τ).loc b) := fun c b => W8 m c b
abbrev W9 (c : Dev nD) : Valuation τ sig (Elt F) := StableHlo.after hostOps2 (W8 m c)
abbrev E9 : (c : Dev nD) → (b : Ref sig .tc) → Buf (Elt F) ((c : Thread nD τ).loc b) := fun c b => W9 m c b

def o10 (c : Dev nD) : Buf (Elt F) ((c : Thread nD τ).loc main_v131) := (d2 (E9 m) c).arrAt 2 cfg2.N
abbrev W10 (c : Dev nD) : Valuation τ sig (Elt F) := Function.update (W9 m c) main_v131 (o10 m d2 c)
abbrev E10 : (c : Dev nD) → (b : Ref sig .tc) → Buf (Elt F) ((c : Thread nD τ).loc b) := fun c b => W10 m d2 c b
abbrev W11 (c : Dev nD) : Valuation τ sig (Elt F) := StableHlo.after hostOps3 (W10 m d2 c)

def outs : Outs (F := F) := fun _ r c =>
  if h : r = main_v88 then h ▸ o6 m c
  else if h : r = main_v91 then h ▸ o8 m c
  else if h : r = main_v131 then h ▸ o10 m d2 c
  else V0 m c r

theorem outs_v88 (c : Dev nD) : outs m d2 6 main_v88 c = o6 m c := by
  unfold outs; rw [dif_pos rfl]
theorem outs_v91 (c : Dev nD) : outs m d2 8 main_v91 c = o8 m c := by
  unfold outs; rw [dif_neg (by decide), dif_pos rfl]
theorem outs_v131 (c : Dev nD) : outs m d2 10 main_v131 c = o10 m d2 c := by
  unfold outs; rw [dif_neg (by decide), dif_neg (by decide), dif_pos rfl]

theorem V6_eq (c : Dev nD) : V6 m (outs m d2) c = W6 m c := by
  show Function.update (V5 m c) main_v88 (outs m d2 6 main_v88 c) = _; rw [outs_v88]
theorem V7_eq (c : Dev nD) : V7 m (outs m d2) c = W7 m c := by
  show StableHlo.after hostOps1 (V6 m (outs m d2) c) = _; rw [V6_eq]
theorem V8_eq (c : Dev nD) : V8 m (outs m d2) c = W8 m c := by
  show Function.update (V7 m (outs m d2) c) main_v91 (outs m d2 8 main_v91 c) = _; rw [V7_eq, outs_v91]
theorem V9_eq (c : Dev nD) : V9 m (outs m d2) c = W9 m c := by
  show StableHlo.after hostOps2 (V8 m (outs m d2) c) = _; rw [V8_eq]
theorem V10_eq (c : Dev nD) : V10 m (outs m d2) c = W10 m d2 c := by
  show Function.update (V9 m (outs m d2) c) main_v131 (outs m d2 10 main_v131 c) = _; rw [V9_eq, outs_v131]
theorem V11_eq (c : Dev nD) : V11 m (outs m d2) c = W11 m d2 c := by
  show StableHlo.after hostOps3 (V10 m (outs m d2) c) = _; rw [V10_eq]

def pdats : (p : Fin 3) → (c : Dev nD) → Dat τ (Elt F) Unit ℕ (UR sig nD τ) ℕ (cfgs p) c
  | ⟨0, _⟩ => fun c => dat0 (E5 m) c
  | ⟨1, _⟩ => fun c => dat1 (E7 m) c
  | ⟨2, _⟩ => fun c => d2 (E9 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0_in (c : Dev nD) (w : Fin cfg0.W) (hw : (cfg0.win w).isOut = false) (b : Ref sig .tc) (hb : Pipeline.arrRef spec0 w = b)
    (hne : b ≠ main_v88) : (dat0 (E5 m) c).arrAt w cfg0.N = E6 m c (Pipeline.arrRef spec0 w) := by
  rw [(dat0 (E5 m) c).arrAt_in w hw _, A_eq0]
  subst hb
  show V5 m c (Proc.devRef .tc _) = Function.update (V5 m c) (Proc.devRef .tc main_v88) (o6 m c) (Proc.devRef .tc _)
  rw [Function.update_of_ne (StableHlo.devRef_ne_of_ne hne)]
theorem hF0_out (c : Dev nD) : (dat0 (E5 m) c).arrAt 3 cfg0.N = E6 m c (Pipeline.arrRef spec0 3) := by
  show _ = Function.update (V5 m c) (Proc.devRef .tc main_v88) (o6 m c) (Proc.devRef .tc main_v88)
  rw [Function.update_self]; rfl
theorem hF0 (c : Dev nD) (w : Fin cfg0.W) : (dat0 (E5 m) c).arrAt w cfg0.N = E6 m c (Pipeline.arrRef spec0 w) :=
  match w with
  | ⟨0, _⟩ => hF0_in m c 0 rfl main_v86 rfl (by decide)
  | ⟨1, _⟩ => hF0_in m c 1 rfl main_arg6 rfl (by decide)
  | ⟨2, _⟩ => hF0_in m c 2 rfl main_v87 rfl (by decide)
  | ⟨3, _⟩ => hF0_out m c
  | ⟨_ + 4, h⟩ => absurd h (Nat.not_lt.2 (Nat.le_add_left _ _))

theorem hrest0 (c : Dev nD) : ∀ b : Ref sig .tc, b ∉ Finset.univ.image (Pipeline.arrRef spec0) → E6 m c b = E5 m c b :=
  fun b hb => Function.update_of_ne (StableHlo.devRef_ne_of_ne fun e => hb (Finset.mem_image.mpr ⟨3, Finset.mem_univ _, e.symm⟩)) _ _

set_option backward.isDefEq.respectTransparency.types false in

def reg0 : Pipeline.RegionSeg (pcfgs (F := F)) adm (pdats m d2) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m d2) launch0.win launch0.arr_whole c
      ((pdats m d2 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d2 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m d2 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m d2) ((pdats m d2 0 c).share_full fun _ => rfl)
      (E5 m c) (E6 m c) ((pdats m d2 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hF1_in (c : Dev nD) (w : Fin cfg1.W) (hw : (cfg1.win w).isOut = false) (b : Ref sig .tc) (hb : Pipeline.arrRef spec1 w = b)
    (hne : b ≠ main_v91) : (dat1 (E7 m) c).arrAt w cfg1.N = E8 m c (Pipeline.arrRef spec1 w) := by
  rw [(dat1 (E7 m) c).arrAt_in w hw _, A_eq1]
  subst hb
  show W7 m c (Proc.devRef .tc _) = Function.update (W7 m c) (Proc.devRef .tc main_v91) (o8 m c) (Proc.devRef .tc _)
  rw [Function.update_of_ne (StableHlo.devRef_ne_of_ne hne)]
theorem hF1_out (c : Dev nD) : (dat1 (E7 m) c).arrAt 2 cfg1.N = E8 m c (Pipeline.arrRef spec1 2) := by
  show _ = Function.update (W7 m c) (Proc.devRef .tc main_v91) (o8 m c) (Proc.devRef .tc main_v91)
  rw [Function.update_self]; rfl
theorem hF1 (c : Dev nD) (w : Fin cfg1.W) : (dat1 (E7 m) c).arrAt w cfg1.N = E8 m c (Pipeline.arrRef spec1 w) :=
  match w with
  | ⟨0, _⟩ => hF1_in m c 0 rfl main_v88 rfl (by decide)
  | ⟨1, _⟩ => hF1_in m c 1 rfl main_arg8 rfl (by decide)
  | ⟨2, _⟩ => hF1_out m c
  | ⟨_ + 3, h⟩ => absurd h (Nat.not_lt.2 (Nat.le_add_left _ _))

theorem hrest1 (c : Dev nD) : ∀ b : Ref sig .tc, b ∉ Finset.univ.image (Pipeline.arrRef spec1) → E8 m c b = E7 m c b :=
  fun b hb => Function.update_of_ne (StableHlo.devRef_ne_of_ne fun e => hb (Finset.mem_image.mpr ⟨2, Finset.mem_univ _, e.symm⟩)) _ _

set_option backward.isDefEq.respectTransparency.types false in

def reg1 : Pipeline.RegionSeg (pcfgs (F := F)) adm (pdats m d2) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m d2) launch1.win launch1.arr_whole c
      ((pdats m d2 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m d2 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m d2 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m d2) ((pdats m d2 1 c).share_full fun _ => rfl)
      (E7 m c) (E8 m c) ((pdats m d2 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIReg2.lean ====
/- Region 2 at any float instance: fifty grid points share an accumulator, reset at the first, updated at each, copied out at the last; three control cases and the invariant that carries the accumulator. -/
import proofs.«416730_j309237645609_2_alg».proof.Proof.Gen.KernelIdeal.Launch
import proofs.«416730_j309237645609_2_alg».proof.Proof.Gen.KernelIdeal.Skeleton
import proofs.«416730_j309237645609_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 50 = 0 :=
  (by decide +kernel : ∀ t : Fin grid2.N, cond2_0 (grid2.coords t) ↔ t.val % 50 = 0)

abbrev cond2_1 (i : grid2.Coords) : Prop := k2_cond2 i = 1#1

theorem hcond2_1 : ∀ t : Fin cfg2.N, cond2_1 (grid2.coords t) ↔ t.val % 50 = 49 :=
  (by decide +kernel : ∀ t : Fin grid2.N, cond2_1 (grid2.coords t) ↔ t.val % 50 = 49)

theorem hz2 : (![0, 0] : Fin 2 → ℕ) = fun _ => 0 := by funext a; fin_cases a <;> rfl

theorem cover2 (w : Vec F S1024x64 .f32) (L : List (View.Piece (Elt F) S1024x64 .f32)) (y : S1024x64.Idx) :
    ∃ pc ∈ ((⟨Rect.unit ![0, 0] S1024x64.size inb_S1024x64_S1024x64_0_0, w⟩ : View.Piece (Elt F) S1024x64 .f32) :: L), y ∈ pc.1.set :=
  ⟨_, List.mem_cons.mpr (Or.inl rfl), View.mem_set_unit_zero hz2 inb_S1024x64_S1024x64_0_0 y⟩

theorem kernel2_A (c : Dev nD) (i : grid2.Coords)
    (arg1 : Memref sig .tc .vmem S2000x64 .f32) (harg1 : arg1.IsWhole)
    (arg2 : Memref sig .tc .vmem S2000x1 .i32) (harg2 : arg2.IsWhole)
    (arg3 : Memref sig .tc .vmem S1024x64 .f32) (harg3 : arg3.IsWhole)
    (arg4 : Memref sig .tc .vmem S1024x64 .f32) (harg4 : arg4.IsWhole)
    (hc0 : cond2_0 i) (hc1 : ¬cond2_1 i)
    (x0 : Vec F S2000x64 .f32) (x1 : Vec F S2000x1 .i32) (xi : Vec F S1024x64 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (k2_pay2 x1 x0 k2_pay1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [View.read_writes_eq_canon _ _ _ (cover2 _ _)]
  rw [View.canon_cons_unit_zero hz2]
  simp only [View.readAt_eq_ld, harg1.read_unread, harg2.read_unread, View.readCov_unit_zero (S := S1024x64) _ hz2,
    View.ld_unit_zero (S := S2000x1) hz2, View.ld_unit_zero (S := S2000x64) hz2, View.ld_unit_zero (S := S1024x64) hz2]

theorem kernel2_B (c : Dev nD) (i : grid2.Coords)
    (arg1 : Memref sig .tc .vmem S2000x64 .f32) (harg1 : arg1.IsWhole)
    (arg2 : Memref sig .tc .vmem S2000x1 .i32) (harg2 : arg2.IsWhole)
    (arg3 : Memref sig .tc .vmem S1024x64 .f32) (harg3 : arg3.IsWhole)
    (arg4 : Memref sig .tc .vmem S1024x64 .f32) (harg4 : arg4.IsWhole)
    (hc0 : ¬cond2_0 i) (hc1 : ¬cond2_1 i)
    (x0 : Vec F S2000x64 .f32) (x1 : Vec F S2000x1 .i32) (xi : Vec F S1024x64 .f32) (xs : Vec F S1024x64 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi ∗ owns (c : Thread nD τ) arg4 fullShare (k2_pay2 x1 x0 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS0
  ipureintro
  sl_unfold_words
  rw [View.read_writes_eq_canon _ _ _ (cover2 _ _)]
  rw [View.canon_unit_zero hz2]
  simp only [View.readAt_eq_ld, harg1.read_unread, harg2.read_unread, harg4.read_unread,
    View.ld_unit_zero (S := S2000x1) hz2, View.ld_unit_zero (S := S2000x64) hz2, View.ld_unit_zero (S := S1024x64) hz2]

theorem kernel2_C (c : Dev nD) (i : grid2.Coords)
    (arg1 : Memref sig .tc .vmem S2000x64 .f32) (harg1 : arg1.IsWhole)
    (arg2 : Memref sig .tc .vmem S2000x1 .i32) (harg2 : arg2.IsWhole)
    (arg3 : Memref sig .tc .vmem S1024x64 .f32) (harg3 : arg3.IsWhole)
    (arg4 : Memref sig .tc .vmem S1024x64 .f32) (harg4 : arg4.IsWhole)
    (hc0 : ¬cond2_0 i) (hc1 : cond2_1 i)
    (x0 : Vec F S2000x64 .f32) (x1 : Vec F S2000x1 .i32) (xs : Vec F S1024x64 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k2_pay2 x1 x0 xs) ∗ owns (c : Thread nD τ) arg4 fullShare (k2_pay2 x1 x0 xs)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (cover2 _ _)]
    rw [View.canon_unit_zero hz2]
    simp only [View.readAt_eq_ld, harg1.read_unread, harg2.read_unread, harg4.read_unread, View.readCov_unit_zero (S := S1024x64) _ hz2,
      View.ld_unit_zero (S := S2000x1) hz2, View.ld_unit_zero (S := S2000x64) hz2, View.ld_unit_zero (S := S1024x64) hz2]
  iexists _; isplitr
  swap; · iexact HS0
  ipureintro
  sl_unfold_words
  rw [View.read_writes_eq_canon _ _ _ (cover2 _ _)]
  rw [View.canon_unit_zero hz2]
  simp only [View.readAt_eq_ld, harg1.read_unread, harg2.read_unread, harg4.read_unread,
    View.ld_unit_zero (S := S2000x1) hz2, View.ld_unit_zero (S := S2000x64) hz2, View.ld_unit_zero (S := S1024x64) hz2]

abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)

abbrev scM2_0 : Memref sig .tc .vmem S1024x64 .f32 := Memref.whole cc2_scratch0

def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f))

theorem PhiA2_split (c : Dev nD) :
    (Pipeline.ΦA spec2 c : sProp 𝕄)
      ⊢ iprop(iprop(others2 (F := F) c ∗ (∃ d, owns (c : Thread nD τ) scM2_0 fullShare d)) ∗ (∃ r, prngReg c r)) := by
  unfold Pipeline.ΦA others2; rw [scopedRest2_eq]; simp only [scM2_0, owns_whole]
  iintro ⟨⟨H1, H2, H3, H4, H5, H6, H7, H8, H9, H10, H11, HS⟩, Hg⟩
  isplitr [Hg]
  · isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexact HS
  · iexact Hg

theorem PhiA2_join (c : Dev nD) :
    iprop(iprop(others2 (F := F) c ∗ (∃ d, owns (c : Thread nD τ) scM2_0 fullShare d)) ∗ (∃ r, prngReg c r))
      ⊢ (Pipeline.ΦA spec2 c : sProp 𝕄) := by
  unfold Pipeline.ΦA others2; rw [scopedRest2_eq]; simp only [scM2_0, owns_whole]
  iintro ⟨⟨⟨H1, H2, H3, H4, H5, H6, H7, H8, H9, H10, H11⟩, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  · iexact Hg

theorem liveAt2_0 : ∀ t : Fin cfg2.N, cfg2.idle 0 (grid2.coords t) = false := fun _ => rfl
theorem liveAt2_1 : ∀ t : Fin cfg2.N, cfg2.idle 1 (grid2.coords t) = false := fun _ => rfl

theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel

theorem liveAt2_2 : ∀ t : Fin cfg2.N, cond2_1 (grid2.coords t) → cfg2.idle 2 (grid2.coords t) = false := by decide +kernel

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

def acc2 (c : Dev nD) : (n : ℕ) → n < cfg2.N → Vec F S1024x64 .f32
  | 0, hn => k2_pay2 (iblk2 V c 1 ⟨0, hn⟩) (iblk2 V c 0 ⟨0, hn⟩) k2_pay1
  | n + 1, hn => k2_pay2 (iblk2 V c 1 ⟨n + 1, hn⟩) (iblk2 V c 0 ⟨n + 1, hn⟩) (acc2 c n (Nat.lt_of_succ_lt hn))

theorem acc2_zero (c : Dev nD) (hn : 0 < cfg2.N) :
    acc2 V c 0 hn = k2_pay2 (iblk2 V c 1 ⟨0, hn⟩) (iblk2 V c 0 ⟨0, hn⟩) k2_pay1 := rfl
theorem acc2_succ (c : Dev nD) (n : ℕ) (hn : n + 1 < cfg2.N) :
    acc2 V c (n + 1) hn = k2_pay2 (iblk2 V c 1 ⟨n + 1, hn⟩) (iblk2 V c 0 ⟨n + 1, hn⟩) (acc2 V c n (Nat.lt_of_succ_lt hn)) := rfl

theorem acc2_first (c : Dev nD) (t : Fin cfg2.N) (hz : t.val = 0) :
    acc2 V c t.val t.isLt = k2_pay2 (iblk2 V c 1 t) (iblk2 V c 0 t) k2_pay1 := by
  obtain ⟨n, hn⟩ := t
  cases n with
  | zero => rfl
  | succ n => exact absurd hz (Nat.succ_ne_zero n)

theorem acc2_pos (c : Dev nD) (t : Fin cfg2.N) (hz : t.val ≠ 0) :
    acc2 V c t.val t.isLt = k2_pay2 (iblk2 V c 1 t) (iblk2 V c 0 t)
      (acc2 V c (t.val - 1) (Nat.lt_of_le_of_lt (Nat.sub_le _ _) t.isLt)) := by
  obtain ⟨n, hn⟩ := t
  cases n with
  | zero => exact absurd rfl hz
  | succ n => rfl

def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare (acc2 V c n hn)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare (acc2 V c n hn)) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare (acc2 V c (n - 1) (by omega))) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem after2_2_last (c : Dev nD) (t : Fin cfg2.N) (ht : t.val = 49) : (dat2 V c).after 2 t = acc2 V c t.val t.isLt :=
  after2_2 V c t

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 50 = 0
  ·
    have h1 : ¬t.val % 50 = 49 := by omega
    have hz : t.val = 0 := by omega
    rw [Dat.leavesExact_idle (dat2 V c) 2 t (idleAt2_2 t (fun h => h1 ((hcond2_1 t).mp h))) (noFlush2_2 t (fun h => h1 ((hcond2_1 t).mp h)))]
    rw [acc2_first V c t hz]
    rw [PhiS2_castSucc V c t, PhiS2_zero V c _ _ hz]
    iintro ⟨HΦ, Ho, ⟨%d0, H0⟩, ⟨%d1, H1⟩, ⟨%d2, H2⟩⟩
    icases (PhiA2_split (F := F) c) $$ HΦ with ⟨⟨HR, HS0⟩, Hg⟩
    iapply (kernel2_A c (grid2.coords t) _ _ _ _ _ _ _ _ ((hcond2_0 t).mpr h0) (fun h => h1 ((hcond2_1 t).mp h)) (iblk2 V c 0 t) (iblk2 V c 1 t) _ Set.univ _)
    isplitl [H0]; · iexact H0
    isplitl [H1]; · iexact H1
    isplitl [H2]; · iexact H2
    isplitl [HS0]; · iexact HS0
    iintro ⟨H0, H1, H2, HS0⟩
    isplitl [HR HS0 Hg]
    · isplitr [Hg]
      · isplitl [HR]; · iexact HR
        iexact HS0
      · iexact Hg
    isplitl [Ho]; · iexact Ho
    isplitl [H0]; · iexact H0
    isplitl [H1]; · iexact H1
    iexists _; iexact H2
  · have hz : t.val ≠ 0 := fun e => h0 (by rw [e])
    rw [acc2_pos V c t hz]
    rw [PhiS2_castSucc V c t, PhiS2_pos V c _ _ hz]
    by_cases h1 : t.val % 50 = 49
    ·
      rw [show (dat2 V c).leavesExact 2 t = owns (c : Thread nD τ) (ms2_2 t) fullShare ((dat2 V c).after 2 t) from by
        unfold Dat.leavesExact; rw [liveAt2_2 t ((hcond2_1 t).mpr h1)], after2_2]
      rw [acc2_pos V c t hz]
      iintro ⟨⟨⟨HR, HS0⟩, Hg⟩, Ho, ⟨%d0, H0⟩, ⟨%d1, H1⟩, ⟨%d2, H2⟩⟩
      iapply (kernel2_C c (grid2.coords t) _ _ _ _ _ _ _ _ (fun h => h0 ((hcond2_0 t).mp h)) ((hcond2_1 t).mpr h1) (iblk2 V c 0 t) (iblk2 V c 1 t) _ Set.univ _)
      isplitl [H0]; · iexact H0
      isplitl [H1]; · iexact H1
      isplitl [H2]; · iexists _; iexact H2
      isplitl [HS0]; · iexact HS0
      iintro ⟨H0, H1, H2, HS0⟩
      isplitl [HR HS0 Hg]
      · isplitr [Hg]
        · isplitl [HR]; · iexact HR
          iexact HS0
        · iexact Hg
      isplitl [Ho]; · iexact Ho
      isplitl [H0]; · iexact H0
      isplitl [H1]; · iexact H1
      iexact H2
    ·
      rw [Dat.leavesExact_idle (dat2 V c) 2 t (idleAt2_2 t (fun h => h1 ((hcond2_1 t).mp h))) (noFlush2_2 t (fun h => h1 ((hcond2_1 t).mp h)))]
      iintro ⟨⟨⟨HR, HS0⟩, Hg⟩, Ho, ⟨%d0, H0⟩, ⟨%d1, H1⟩, ⟨%d2, H2⟩⟩
      iapply (kernel2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS0]; · iexact HS0
      iintro ⟨H0, H1, H2, HS0⟩
      isplitl [HR HS0 Hg]
      · isplitr [Hg]
        · isplitl [HR]; · iexact HR
          iexact HS0
        · iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨⟨HR, HS0⟩, Hg⟩
  iapply (PhiA2_join (F := F) c)
  isplitr [Hg]
  · isplitl [HR]; · iexact HR
    iexists _; iexact HS0
  · iexact Hg

theorem hout2 (c : Dev nD) : (dat2 V c).Φ (Fin.last cfg2.N) ⊢ Pipeline.ΦA spec2 c :=
  Phi_out2 V c _ (by rw [Fin.val_last]; have : cfg2.N = 50 := N_2; omega)

end Region2

end Cert.KernelIdeal.Hand

end
-- ==== Proof.KIRun.lean ====
/- Region 2 as a segment, then @main from the launch to the return: every buffer's final contents, and the frame. -/
import proofs.«416730_j309237645609_2_alg».proof.Proof.KISegs
import proofs.«416730_j309237645609_2_alg».proof.Proof.KIReg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hF2_in (c : Dev nD) (w : Fin cfg2.W) (hw : (cfg2.win w).isOut = false) (b : Ref sig .tc) (hb : Pipeline.arrRef spec2 w = b)
    (hne : b ≠ main_v131) : (dat2 (E9 m) c).arrAt w cfg2.N = E10 m dat2 c (Pipeline.arrRef spec2 w) := by
  rw [(dat2 (E9 m) c).arrAt_in w hw _, A_eq2]
  subst hb
  show W9 m c (Proc.devRef .tc _) = Function.update (W9 m c) (Proc.devRef .tc main_v131) (o10 m dat2 c) (Proc.devRef .tc _)
  rw [Function.update_of_ne (StableHlo.devRef_ne_of_ne hne)]
theorem hF2_out (c : Dev nD) : (dat2 (E9 m) c).arrAt 2 cfg2.N = E10 m dat2 c (Pipeline.arrRef spec2 2) := by
  show _ = Function.update (W9 m c) (Proc.devRef .tc main_v131) (o10 m dat2 c) (Proc.devRef .tc main_v131)
  rw [Function.update_self]; rfl
theorem hF2 (c : Dev nD) (w : Fin cfg2.W) : (dat2 (E9 m) c).arrAt w cfg2.N = E10 m dat2 c (Pipeline.arrRef spec2 w) :=
  match w with
  | ⟨0, _⟩ => hF2_in m c 0 rfl main_v126 rfl (by decide)
  | ⟨1, _⟩ => hF2_in m c 1 rfl main_v130 rfl (by decide)
  | ⟨2, _⟩ => hF2_out m c
  | ⟨_ + 3, h⟩ => absurd h (Nat.not_lt.2 (Nat.le_add_left _ _))

theorem hrest2 (c : Dev nD) : ∀ b : Ref sig .tc, b ∉ Finset.univ.image (Pipeline.arrRef spec2) → E10 m dat2 c b = E9 m c b :=
  fun b hb => Function.update_of_ne (StableHlo.devRef_ne_of_ne fun e => hb (Finset.mem_image.mpr ⟨2, Finset.mem_univ _, e.symm⟩)) _ _

set_option backward.isDefEq.respectTransparency.types false in

def reg2 : Pipeline.RegionSeg (pcfgs (F := F)) adm (pdats m dat2) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m dat2 c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m dat2) launch2.win launch2.arr_whole c
      ((pdats m dat2 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E9 m) c)
    unfold Pipeline.ΦA
    iintro ⟨Hp, -, Hr⟩
    isplitl [Hr]; · iexact Hr
    iexact Hp
  hout c := by
    rw [Pipeline.ownSems0_none]
    refine BIBase.Entails.trans (hout2 (E9 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m dat2) ((pdats m dat2 2 c).share_full fun _ => rfl)
      (E9 m c) (E10 m dat2 c) ((pdats m dat2 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in

theorem run_all : θ_run defs (onTc (τ := τ) (main (F := F))) ⟨m, fun _ => 0, ρ⟩ (fun r => ∀ c : Dev nD,
    ∀ b ∈ Pipeline.ucRefs τ sig, r.2.mem ((c : Thread nD τ).1, b) = W11 m dat2 c b) :=
  (θ_run defs _ _).mono (fun r h c b hb => (h c b hb).trans (congrFun (V11_eq m dat2 c) b))
    (run_cond m emb₁ () 𝒱₀ L lv (fun _ _ => rfl) ρ (outs m dat2) (pdats m dat2) 0 (fun _ => iprop(emp))
      (initOf (Pipeline.cells cfgs cellOf_inj) (Pipeline.launchToks cfgs cellOf_inj)) hu₀
      (fun _ c => R c) (hE0 ρ) (fun c => by iintro ⟨-, HO⟩; iexact HO)
      (reg0 m dat2) (fun c => .rfl) (fun c => by rw [V6_eq]; exact .rfl)
      (reg1 m dat2) (fun c => by rw [V7_eq]; exact .rfl) (fun c => by rw [V8_eq]; exact .rfl)
      (reg2 m) (fun c => by rw [V9_eq]; exact .rfl) (fun c => by rw [V10_eq]; exact .rfl))

set_option backward.isDefEq.respectTransparency.types false in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m dat2) (pdats m dat2) 0 (fun _ => iprop(emp))
    (initOf (Pipeline.cells cfgs cellOf_inj) (Pipeline.launchToks cfgs cellOf_inj)) hu₀
    (fun _ c => R c) (hE0 ρ) (fun c => by iintro ⟨-, HO⟩; iexact HO)
    (reg0 m dat2) (fun c => .rfl) (fun c => by rw [V6_eq]; exact .rfl)
    (reg1 m dat2) (fun c => by rw [V7_eq]; exact .rfl) (fun c => by rw [V8_eq]; exact .rfl)
    (reg2 m) (fun c => by rw [V9_eq]; exact .rfl) (fun c => by rw [V10_eq]; exact .rfl)

end Cert.KernelIdeal.Hand

end
-- ==== Proof.Closed.lean ====
/- The three kernel regions as whole-array functions over the extended reals. -/
import proofs.«416730_j309237645609_2_alg».proof.KernelIdeal
import Idealize.ShloMosaic.PureOps.Ideal
import Idealize.ShloMosaic.Lib.ValueIdx

noncomputable section

namespace Cert.Bridge

open Idealize.ShloMosaic Idealize.ShloMosaic.ValueIdx Cert.KernelIdeal

def rg0 (X : FVec Ideal S100000x64 .f32) (W : FVec Ideal S64x128 .f32) (b : FVec Ideal S1x128 .f32) :
    FVec Ideal S100000x128 .f32 :=
  fun i => max ((∑ k : Fin 64, X (ix2 (⟨(i 0).val, (i 0).isLt⟩ : Fin 100000) k) * W (ix2 k (⟨(i 1).val, (i 1).isLt⟩ : Fin 128)))
    + b (ix2 (0 : Fin 1) (⟨(i 1).val, (i 1).isLt⟩ : Fin 128))) 0

def rg1 (H : FVec Ideal S100000x128 .f32) (W : FVec Ideal S128x64 .f32) : FVec Ideal S100000x64 .f32 :=
  fun i => ∑ k : Fin 128, H (ix2 (⟨(i 0).val, (i 0).isLt⟩ : Fin 100000) k) * W (ix2 k (⟨(i 1).val, (i 1).isLt⟩ : Fin 64))

def oh (w : BitVec 32) (p : Fin 1024) : EReal := if w = BitVec.ofNat 32 p.val then 1 else 0

def rg2 (feats : FVec Ideal S100000x64 .f32) (ids : IVec S100000x1 32) : FVec Ideal S1024x64 .f32 :=
  fun i => ∑ r : Fin 100000, oh (ids (ix2 r (0 : Fin 1))) (⟨(i 0).val, (i 0).isLt⟩ : Fin 1024)
    * feats (ix2 r (⟨(i 1).val, (i 1).isLt⟩ : Fin 64))

end Cert.Bridge

end
-- ==== Proof.KIVal01.lean ====
/- Regions 0 and 1 on the extended reals: the output array is, row by row, relu (x W + b), respectively x W, of the arrays the region finds. -/
import proofs.«416730_j309237645609_2_alg».proof.Proof.KIReg01
import proofs.«416730_j309237645609_2_alg».proof.Proof.Closed
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

theorem lhs0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem mm0_apply (a : FVec Ideal S5000x64 .bf16) (b : FVec Ideal S64x128 .bf16) (p : Fin 5000) (q : Fin 128) :
    matmul dot_S5000x64_S64x128_S5000x128_1_0_0_1_n_n none a b (constant (F := Ideal) S5000x128 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun ax => Fin.ext (by
    match ax with
    | ⟨0, _⟩ => exact lhs0_0 _ _
    | ⟨1, _⟩ => exact (lhs0_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun ax => Fin.ext (by
    match ax with
    | ⟨0, _⟩ => exact (rhs0_0 _ _).trans hk
    | ⟨1, _⟩ => exact rhs0_1 _ _)
  rw [el, er]

theorem lhs1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem mm1_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun ax => Fin.ext (by
    match ax with
    | ⟨0, _⟩ => exact lhs1_0 _ _
    | ⟨1, _⟩ => exact (lhs1_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun ax => Fin.ext (by
    match ax with
    | ⟨0, _⟩ => exact (rhs1_0 _ _).trans hk
    | ⟨1, _⟩ => exact rhs1_1 _ _)
  rw [el, er]

theorem pay0_apply (x0 : FVec Ideal S5000x64 .f32) (x1 : FVec Ideal S64x128 .f32) (x2 : FVec Ideal S1x128 .f32) (p : Fin 5000) (q : Fin 128) :
    k0_pay1 x0 x1 x2 (ix2 p q) = max ((∑ k : Fin 64, x0 (ix2 p k) * x1 (ix2 k q)) + x2 (ix2 (0 : Fin 1) q)) 0 := by
  unfold k0_pay1
  simp only [shapeCast_self]
  refine (maximumf_apply _ _ _).trans ?_
  rw [broadcast_apply]
  show max (_ + _) (Ideal.ofBits .f32 0x00000000#32) = _
  rw [Ideal.ofBits_zero_f32, mm0_apply, broadcastTo_1b_ab_apply]
  rfl

theorem pay1_apply (x0 : FVec Ideal S5000x128 .f32) (x1 : FVec Ideal S128x64 .f32) (p : Fin 5000) (q : Fin 64) :
    k1_pay1 x0 x1 (ix2 p q) = ∑ k : Fin 128, x0 (ix2 p k) * x1 (ix2 k q) := by
  unfold k1_pay1
  simp only [shapeCast_self]
  rw [mm1_apply]
  rfl

theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

theorem iblk0_0_apply (V : (c : Dev nD) → (b : Ref sig .tc) → Buf (Elt Ideal) ((c : Thread nD τ).loc b)) (c : Dev nD) (t : Fin cfg0.N)
    (x : S5000x64.Idx) (i : S100000x64.Idx) (h0 : (i 0).val = 5000 * t.val + (x 0).val) (h1 : (i 1).val = (x 1).val) :
    (Hand.iblk0 (F := Ideal) V c 0 t : FVec Ideal S5000x64 .f32) x = (V c main_v86 : FVec Ideal S100000x64 .f32) i := by
  obtain ⟨e0, e1, e2, e3, e4, e5, e6, e7⟩ := idx_facts0 t
  unfold Hand.iblk0
  rw [View.read_apply]
  show V c main_v86 _ = V c main_v86 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 64 + 1 * (x 1).val = (i 1).val; rw [e1, h1]; omega

theorem iblk0_1_eq (V : (c : Dev nD) → (b : Ref sig .tc) → Buf (Elt Ideal) ((c : Thread nD τ).loc b)) (c : Dev nD) (t : Fin cfg0.N) :
    (Hand.iblk0 (F := Ideal) V c 1 t : FVec Ideal S64x128 .f32) = (V c main_arg6 : FVec Ideal S64x128 .f32) := by
  obtain ⟨e0, e1, e2, e3, e4, e5, e6, e7⟩ := idx_facts0 t
  funext x
  unfold Hand.iblk0
  rw [View.read_apply]
  show V c main_arg6 _ = V c main_arg6 _
  congr 1
  funext a
  apply Fin.ext
  match a with
  | ⟨0, _⟩ => show win0_1.index t (0 : Fin 2) * 64 + 1 * (x 0).val = (x 0).val; rw [e2]; omega
  | ⟨1, _⟩ => show win0_1.index t (1 : Fin 2) * 128 + 1 * (x 1).val = (x 1).val; rw [e3]; omega

theorem iblk0_2_eq (V : (c : Dev nD) → (b : Ref sig .tc) → Buf (Elt Ideal) ((c : Thread nD τ).loc b)) (c : Dev nD) (t : Fin cfg0.N) :
    (Hand.iblk0 (F := Ideal) V c 2 t : FVec Ideal S1x128 .f32) = (V c main_v87 : FVec Ideal S1x128 .f32) := by
  obtain ⟨e0, e1, e2, e3, e4, e5, e6, e7⟩ := idx_facts0 t
  funext x
  unfold Hand.iblk0
  rw [View.read_apply]
  show V c main_v87 _ = V c main_v87 _
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 128 + 1 * (x 1).val = (x 1).val; rw [e5]; omega

theorem blockval0 (X : FVec Ideal S100000x64 .f32) (A1 x1 : FVec Ideal S64x128 .f32) (A2 x2 : FVec Ideal S1x128 .f32) (x0 : FVec Ideal S5000x64 .f32) (n : ℕ)
    (hX : ∀ (p : Fin 5000) (k : Fin 64) (r : Fin 100000), r.val = 5000 * n + p.val → x0 (ix2 p k) = X (ix2 r k))
    (h1 : x1 = A1) (h2 : x2 = A2) (p : Fin 5000) (q : Fin 128) (i : S100000x128.Idx)
    (hi0 : (i 0).val = 5000 * n + p.val) (hi1 : (i 1).val = q.val) :
    k0_pay1 x0 x1 x2 (ix2 p q) = rg0 X A1 A2 i := by
  subst h1 h2
  rw [pay0_apply]
  unfold rg0
  have hq : (⟨(i 1).val, (i 1).isLt⟩ : Fin 128) = q := Fin.ext hi1
  have hs : (∑ k : Fin 64, x0 (ix2 p k) * x1 (ix2 k q))
      = ∑ k : Fin 64, X (ix2 (⟨(i 0).val, (i 0).isLt⟩ : Fin 100000) k) * x1 (ix2 k q) :=
    Finset.sum_congr rfl fun k _ => by rw [hX p k ⟨(i 0).val, (i 0).isLt⟩ hi0]
  rw [hs, hq]

theorem flushed0_eq (V : (c : Dev nD) → (b : Ref sig .tc) → Buf (Elt Ideal) ((c : Thread nD τ).loc b)) (c : Dev nD) (t : Fin cfg0.N) :
    (Hand.dat0 (F := Ideal) V c).flushed 3 t
      = ((cfg0.win 3).blk t).view.read (Elt Ideal) (rg0 (V c main_v86) (V c main_arg6) (V c main_v87)) := by
  show (cfg0.win 3).cut (grid0.coords t) ((Hand.dat0 (F := Ideal) V c).after 3 t) = _
  rw [Hand.after0_3]
  unfold Hand.out0_3
  rw [View.canon_unit_zero hz]
  simp only [View.ld_unit_zero (S := S5000x64) hz, View.ld_unit_zero (S := S64x128) hz, View.ld_unit_zero (S := S1x128) hz]
  obtain ⟨e0, e1, e2, e3, e4, e5, e6, e7⟩ := idx_facts0 t
  funext j
  obtain ⟨p, q, rfl⟩ : ∃ (p : Fin 5000) (q : Fin 128), j = ix2 p q := ⟨j 0, j 1, eq_ix2 j⟩
  show k0_pay1 _ _ _ (ix2 p q) = rg0 _ _ _ (((cfg0.win 3).blk t).view.emb (ix2 p q))
  refine blockval0 (V c main_v86) (V c main_arg6) (Hand.iblk0 (F := Ideal) V c 1 t) (V c main_v87) (Hand.iblk0 (F := Ideal) V c 2 t) (Hand.iblk0 (F := Ideal) V c 0 t) t.val
    (fun p k r hr => iblk0_0_apply V c t (ix2 p k) (ix2 r k) hr rfl) (iblk0_1_eq V c t) (iblk0_2_eq V c t) p q _ ?_ ?_
  · show win0_3.index t (0 : Fin 2) * 5000 + 1 * p.val = 5000 * t.val + p.val; rw [e6]; omega
  · show win0_3.index t (1 : Fin 2) * 128 + 1 * q.val = q.val; rw [e7]; omega

theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v88).slice (win0_3.rect t)).set ↔ _
  rw [View.set_slice_whole, Rect.mem_set_unit]
  exact Iff.rfl

theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5, e6, e7⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

theorem arr0 (V : (c : Dev nD) → (b : Ref sig .tc) → Buf (Elt Ideal) ((c : Thread nD τ).loc b)) (c : Dev nD) :
    (Hand.dat0 (F := Ideal) V c).arrAt 3 cfg0.N = rg0 (V c main_v86) (V c main_arg6) (V c main_v87) :=
  (Hand.dat0 (F := Ideal) V c).arrAt_eq_of_cover 3 (rg0 (V c main_v86) (V c main_arg6) (V c main_v87)) (fun t _ => flushed0_eq V c t) cover0

theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

theorem iblk1_0_apply (V : (c : Dev nD) → (b : Ref sig .tc) → Buf (Elt Ideal) ((c : Thread nD τ).loc b)) (c : Dev nD) (t : Fin cfg1.N)
    (x : S5000x128.Idx) (i : S100000x128.Idx) (h0 : (i 0).val = 5000 * t.val + (x 0).val) (h1 : (i 1).val = (x 1).val) :
    (Hand.iblk1 (F := Ideal) V c 0 t : FVec Ideal S5000x128 .f32) x = (V c main_v88 : FVec Ideal S100000x128 .f32) i := by
  obtain ⟨e0, e1, e2, e3, e4, e5⟩ := idx_facts1 t
  unfold Hand.iblk1
  rw [View.read_apply]
  show V c main_v88 _ = V c main_v88 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

theorem iblk1_1_eq (V : (c : Dev nD) → (b : Ref sig .tc) → Buf (Elt Ideal) ((c : Thread nD τ).loc b)) (c : Dev nD) (t : Fin cfg1.N) :
    (Hand.iblk1 (F := Ideal) V c 1 t : FVec Ideal S128x64 .f32) = (V c main_arg8 : FVec Ideal S128x64 .f32) := by
  obtain ⟨e0, e1, e2, e3, e4, e5⟩ := idx_facts1 t
  funext x
  unfold Hand.iblk1
  rw [View.read_apply]
  show V c main_arg8 _ = V c main_arg8 _
  congr 1
  funext a
  apply Fin.ext
  match a with
  | ⟨0, _⟩ => show win1_1.index t (0 : Fin 2) * 128 + 1 * (x 0).val = (x 0).val; rw [e2]; omega
  | ⟨1, _⟩ => show win1_1.index t (1 : Fin 2) * 64 + 1 * (x 1).val = (x 1).val; rw [e3]; omega

theorem blockval1 (X : FVec Ideal S100000x128 .f32) (A1 x1 : FVec Ideal S128x64 .f32) (x0 : FVec Ideal S5000x128 .f32) (n : ℕ)
    (hX : ∀ (p : Fin 5000) (k : Fin 128) (r : Fin 100000), r.val = 5000 * n + p.val → x0 (ix2 p k) = X (ix2 r k))
    (h1 : x1 = A1) (p : Fin 5000) (q : Fin 64) (i : S100000x64.Idx)
    (hi0 : (i 0).val = 5000 * n + p.val) (hi1 : (i 1).val = q.val) :
    k1_pay1 x0 x1 (ix2 p q) = rg1 X A1 i := by
  subst h1
  rw [pay1_apply]
  unfold rg1
  have hq : (⟨(i 1).val, (i 1).isLt⟩ : Fin 64) = q := Fin.ext hi1
  have hs : (∑ k : Fin 128, x0 (ix2 p k) * x1 (ix2 k q))
      = ∑ k : Fin 128, X (ix2 (⟨(i 0).val, (i 0).isLt⟩ : Fin 100000) k) * x1 (ix2 k q) :=
    Finset.sum_congr rfl fun k _ => by rw [hX p k ⟨(i 0).val, (i 0).isLt⟩ hi0]
  rw [hs, hq]

theorem flushed1_eq (V : (c : Dev nD) → (b : Ref sig .tc) → Buf (Elt Ideal) ((c : Thread nD τ).loc b)) (c : Dev nD) (t : Fin cfg1.N) :
    (Hand.dat1 (F := Ideal) V c).flushed 2 t
      = ((cfg1.win 2).blk t).view.read (Elt Ideal) (rg1 (V c main_v88) (V c main_arg8)) := by
  show (cfg1.win 2).cut (grid1.coords t) ((Hand.dat1 (F := Ideal) V c).after 2 t) = _
  rw [Hand.after1_2]
  unfold Hand.out1_2
  rw [View.canon_unit_zero hz]
  simp only [View.ld_unit_zero (S := S5000x128) hz, View.ld_unit_zero (S := S128x64) hz]
  obtain ⟨e0, e1, e2, e3, e4, e5⟩ := idx_facts1 t
  funext j
  obtain ⟨p, q, rfl⟩ : ∃ (p : Fin 5000) (q : Fin 64), j = ix2 p q := ⟨j 0, j 1, eq_ix2 j⟩
  show k1_pay1 _ _ (ix2 p q) = rg1 _ _ (((cfg1.win 2).blk t).view.emb (ix2 p q))
  refine blockval1 (V c main_v88) (V c main_arg8) (Hand.iblk1 (F := Ideal) V c 1 t) (Hand.iblk1 (F := Ideal) V c 0 t) t.val
    (fun p k r hr => iblk1_0_apply V c t (ix2 p k) (ix2 r k) hr rfl) (iblk1_1_eq V c t) p q _ ?_ ?_
  · show win1_2.index t (0 : Fin 2) * 5000 + 1 * p.val = 5000 * t.val + p.val; rw [e4]; omega
  · show win1_2.index t (1 : Fin 2) * 64 + 1 * q.val = q.val; rw [e5]; omega

theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v91).slice (win1_2.rect t)).set ↔ _
  rw [View.set_slice_whole, Rect.mem_set_unit]
  exact Iff.rfl

theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨e0, e1, e2, e3, e4, e5⟩ := idx_facts1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

theorem arr1 (V : (c : Dev nD) → (b : Ref sig .tc) → Buf (Elt Ideal) ((c : Thread nD τ).loc b)) (c : Dev nD) :
    (Hand.dat1 (F := Ideal) V c).arrAt 2 cfg1.N = rg1 (V c main_v88) (V c main_arg8) :=
  (Hand.dat1 (F := Ideal) V c).arrAt_eq_of_cover 2 (rg1 (V c main_v88) (V c main_arg8)) (fun t _ => flushed1_eq V c t) cover1

end Cert.Bridge

end
-- ==== Proof.KIVal2.lean ====
/- Region 2 on the extended reals: started from zero and run over the fifty blocks, entry (p, o) of the sum is the sum over all rows r of [id r = p] times feature (r, o). -/
import proofs.«416730_j309237645609_2_alg».proof.Proof.Gen.KernelIdeal.Skeleton
import proofs.«416730_j309237645609_2_alg».proof.Proof.Closed
import Idealize.ShloMosaic.PureOps.Ideal.Laws
import Idealize.ShloMosaic.Lib.ValueIdx
import Idealize.ShloMosaic.Lib.Pipeline.Value
import proofs.«416730_j309237645609_2_alg».proof.Proof.Gen.KernelIdeal.Launch
import proofs.«416730_j309237645609_2_alg».proof.Proof.Gen.KernelIdeal.Points
import proofs.«416730_j309237645609_2_alg».proof.Proof.KIReg2

set_option maxRecDepth 16384

noncomputable section

namespace Cert.Bridge

open Idealize.ShloMosaic Idealize.ShloMosaic.ValueIdx Cert.KernelIdeal Cert.KernelIdeal.Gen

theorem lhs_pool_0 (i : S1024x64.Idx) (q : dot_S2000x1024_S2000x64_S1024x64_0_0_1_1_n_n.contr.Idx) :
    (dot_S2000x1024_S2000x64_S1024x64_0_0_1_1_n_n.lhsIdx i q 0).val = (q ⟨0, by decide⟩).val :=
  dot_S2000x1024_S2000x64_S1024x64_0_0_1_1_n_n.lhsIdx_val_of_single rfl i q

theorem lhs_pool_1 (i : S1024x64.Idx) (q : dot_S2000x1024_S2000x64_S1024x64_0_0_1_1_n_n.contr.Idx) :
    (dot_S2000x1024_S2000x64_S1024x64_0_0_1_1_n_n.lhsIdx i q 1).val = (i 0).val := by
  unfold DotDims.lhsIdx
  rw [dif_neg (show ¬(1 : Fin S2000x1024.rank) ∈ dot_S2000x1024_S2000x64_S1024x64_0_0_1_1_n_n.lhsBatch by decide), dif_pos (show (1 : Fin S2000x1024.rank) ∈ dot_S2000x1024_S2000x64_S1024x64_0_0_1_1_n_n.lhsNonContracting by decide)]
  rfl

theorem rhs_pool_0 (i : S1024x64.Idx) (q : dot_S2000x1024_S2000x64_S1024x64_0_0_1_1_n_n.contr.Idx) :
    (dot_S2000x1024_S2000x64_S1024x64_0_0_1_1_n_n.rhsIdx i q 0).val = (q ⟨0, by decide⟩).val :=
  dot_S2000x1024_S2000x64_S1024x64_0_0_1_1_n_n.rhsIdx_val_of_single rfl i q

theorem rhs_pool_1 (i : S1024x64.Idx) (q : dot_S2000x1024_S2000x64_S1024x64_0_0_1_1_n_n.contr.Idx) :
    (dot_S2000x1024_S2000x64_S1024x64_0_0_1_1_n_n.rhsIdx i q 1).val = (i 1).val := by
  unfold DotDims.rhsIdx
  rw [dif_neg (show ¬(1 : Fin S2000x64.rank) ∈ dot_S2000x1024_S2000x64_S1024x64_0_0_1_1_n_n.rhsBatch by decide), dif_pos (show (1 : Fin S2000x64.rank) ∈ dot_S2000x1024_S2000x64_S1024x64_0_0_1_1_n_n.rhsNonContracting by decide)]
  rfl

theorem onehot_word (w : BitVec 32) (p : Fin 1024) :
    (((((IntOp.cmpi .eq w (BitVec.ofNat 32 p.val)).setWidth 32).toInt : ℝ) : EReal)) = oh w p := by
  unfold oh IntOp.cmpi
  by_cases h : w = BitVec.ofNat 32 p.val
  · rw [if_pos h]; subst h; simp
  · rw [if_neg h]
    have : (w == BitVec.ofNat 32 p.val) = false := by simpa using h
    simp [this]

theorem onehot_entry (ids : Vec Ideal S2000x1 .i32) (y : Fin 2000) (p : Fin 1024) :
    (truncf .bf16 (sitofp (F := Ideal) .f32 (extui 32 (cmpi .eq (broadcastTo S2000x1024 (shapeCast S2000x1 ids shapeCasts_S2000x1_S2000x1) broadcasts_S2000x1_S2000x1024)
      (iota .tc S2000x1024 32 [1] iota_S2000x1024_d1_w32)) natLt_1_32)) bitsLt_bf16_f32 : FVec Ideal S2000x1024 .bf16) (ix2 y p)
      = oh (ids (ix2 y (0 : Fin 1))) p := by
  rw [shapeCast_self]
  rw [truncf_apply, sitofp_apply, extui_apply]
  have hb : broadcastTo S2000x1024 ids broadcasts_S2000x1_S2000x1024 (ix2 y p) = ids (ix2 y (0 : Fin 1)) :=
    broadcastTo_apply ids broadcasts_S2000x1_S2000x1024 (ix2 y p) (ix2 y (0 : Fin 1)) (fun a => by
      match a with
      | ⟨0, _⟩ => show y.val = if (2000 : Nat) = 1 then 0 else y.val; rw [if_neg (by decide)]
      | ⟨1, _⟩ => show (0 : Nat) = if (1 : Nat) = 1 then 0 else p.val; rw [if_pos rfl])
  show (((((IntOp.cmpi .eq (broadcastTo S2000x1024 ids broadcasts_S2000x1_S2000x1024 (ix2 y p)) (BitVec.ofNat 32 (0 * 1024 + p.val))).setWidth 32).toInt : ℝ) : EReal)) = _
  rw [hb, Nat.zero_mul, Nat.zero_add]
  exact onehot_word _ p

theorem pay2_apply (ids : Vec Ideal S2000x1 .i32) (f : Vec Ideal S2000x64 .f32) (acc : Vec Ideal S1024x64 .f32) (p : Fin 1024) (o : Fin 64) :
    k2_pay2 (F := Ideal) ids f acc (ix2 p o) = acc (ix2 p o) + ∑ y : Fin 2000, oh (ids (ix2 y (0 : Fin 1))) p * f (ix2 y o) := by
  unfold k2_pay2
  rw [shapeCast_self, addf_apply]
  refine congrArg (acc (ix2 p o) + ·) ?_
  refine (Ideal.matmul_constant_zero_apply dot_S2000x1024_S2000x64_S1024x64_0_0_1_1_n_n none _ _ (ix2 p o)).trans ?_
  rw [← Equiv.sum_comp (ValueIdx.contrEquiv1 dot_S2000x1024_S2000x64_S1024x64_0_0_1_1_n_n 2000 rfl rfl).symm]
  refine Finset.sum_congr rfl fun y _ => ?_
  have hk := ValueIdx.contrEquiv1_symm_val dot_S2000x1024_S2000x64_S1024x64_0_0_1_1_n_n 2000 rfl rfl y
  have el : dot_S2000x1024_S2000x64_S1024x64_0_0_1_1_n_n.lhsIdx (ix2 p o) ((ValueIdx.contrEquiv1 dot_S2000x1024_S2000x64_S1024x64_0_0_1_1_n_n 2000 rfl rfl).symm y) = ix2 y p := funext fun a => Fin.ext (by
    match a with
    | ⟨0, _⟩ => exact (lhs_pool_0 _ _).trans hk
    | ⟨1, _⟩ => exact lhs_pool_1 _ _)
  have er : dot_S2000x1024_S2000x64_S1024x64_0_0_1_1_n_n.rhsIdx (ix2 p o) ((ValueIdx.contrEquiv1 dot_S2000x1024_S2000x64_S1024x64_0_0_1_1_n_n 2000 rfl rfl).symm y) = ix2 y o := funext fun a => Fin.ext (by
    match a with
    | ⟨0, _⟩ => exact (rhs_pool_0 _ _).trans hk
    | ⟨1, _⟩ => exact rhs_pool_1 _ _)
  rw [el, er, onehot_entry, shapeCast_self, truncf_apply]

theorem reset_pay_apply (p : Fin 1024) (o : Fin 64) : k2_pay1 (F := Ideal) (ix2 p o) = 0 := by
  unfold k2_pay1
  rw [shapeCast_self]
  exact Ideal.ofBits_zero_f32

theorem fold_apply (I : Fin 50 → Vec Ideal S2000x1 .i32) (Fb : Fin 50 → Vec Ideal S2000x64 .f32)
    (A : (n : ℕ) → n < 50 → Vec Ideal S1024x64 .f32)
    (h0 : ∀ h, A 0 h = k2_pay2 (F := Ideal) (I ⟨0, h⟩) (Fb ⟨0, h⟩) (k2_pay1 (F := Ideal)))
    (hs : ∀ n h, A (n + 1) h = k2_pay2 (F := Ideal) (I ⟨n + 1, h⟩) (Fb ⟨n + 1, h⟩) (A n (Nat.lt_of_succ_lt h)))
    (p : Fin 1024) (o : Fin 64) : ∀ (n : ℕ) (hn : n < 50),
      A n hn (ix2 p o) = ∑ t : Fin (n + 1), ∑ y : Fin 2000,
        oh (I ⟨t.val, Nat.lt_of_lt_of_le t.isLt hn⟩ (ix2 y (0 : Fin 1))) p * Fb ⟨t.val, Nat.lt_of_lt_of_le t.isLt hn⟩ (ix2 y o)
  | 0, hn => by
    rw [h0, pay2_apply, reset_pay_apply, zero_add, Fin.sum_univ_one]
    rfl
  | n + 1, hn => by
    rw [hs, pay2_apply, fold_apply I Fb A h0 hs p o n (Nat.lt_of_succ_lt hn), Fin.sum_univ_castSucc (n := n + 1)]
    rfl

theorem sum_blocks (g : Fin 100000 → EReal) :
    ∑ t : Fin 50, ∑ y : Fin 2000, g ⟨2000 * t.val + y.val, by have := t.isLt; have := y.isLt; omega⟩ = ∑ r : Fin 100000, g r := by
  rw [← Fintype.sum_prod_type (f := fun x : Fin 50 × Fin 2000 => g ⟨2000 * x.1.val + x.2.val, by have := x.1.isLt; have := x.2.isLt; omega⟩)]
  rw [← Equiv.sum_comp (finProdFinEquiv (m := 50) (n := 2000)) g]
  refine Finset.sum_congr rfl fun x _ => congrArg g (Fin.ext ?_)
  show 2000 * x.1.val + x.2.val = x.2.val + 2000 * x.1.val
  omega

section Array
open Cert.KernelIdeal.Hand
open Idealize.ShloMosaic.TcCoe
open Idealize.ShloMosaic.Pipeline (Dat)

variable (V : (c : Dev nD) → (b : Ref sig .tc) → Buf (Elt Ideal) ((c : Thread nD τ).loc b))

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

theorem row_lt (t : Fin cfg2.N) (y : Fin 2000) : 2000 * t.val + y.val < 100000 := by
  have h1 : t.val < 50 := t.isLt
  have h2 := y.isLt
  omega

theorem feats_block (c : Dev nD) (t : Fin cfg2.N) (y : Fin 2000) (o : Fin 64) :
    (iblk2 (F := Ideal) V c 0 t : S2000x64.Idx → EReal) (ix2 y o)
      = (V c main_v126 : S100000x64.Idx → EReal) (ix2 (⟨2000 * t.val + y.val, row_lt t y⟩ : Fin 100000) o) := by
  obtain ⟨e0, e1, -, -, -, -⟩ := idx_facts t
  show V c main_v126 (((cfg2.win 0).blk t).view.emb (ix2 y o)) = _
  refine congrArg (V c main_v126) (funext fun a => Fin.ext ?_)
  match a with
  | ⟨0, _⟩ => show win2_0.index t (0 : Fin 2) * 2000 + 1 * y.val = 2000 * t.val + y.val; omega
  | ⟨1, _⟩ => show win2_0.index t (1 : Fin 2) * 64 + 1 * o.val = o.val; omega

theorem ids_block (c : Dev nD) (t : Fin cfg2.N) (y : Fin 2000) :
    (iblk2 (F := Ideal) V c 1 t : S2000x1.Idx → BitVec 32) (ix2 y (0 : Fin 1))
      = (V c main_v130 : S100000x1.Idx → BitVec 32) (ix2 (⟨2000 * t.val + y.val, row_lt t y⟩ : Fin 100000) (0 : Fin 1)) := by
  obtain ⟨-, -, e0, e1, -, -⟩ := idx_facts t
  show V c main_v130 (((cfg2.win 1).blk t).view.emb (ix2 y (0 : Fin 1))) = _
  refine congrArg (V c main_v130) (funext fun a => Fin.ext ?_)
  match a with
  | ⟨0, _⟩ => show win2_1.index t (0 : Fin 2) * 2000 + 1 * y.val = 2000 * t.val + y.val; omega
  | ⟨1, _⟩ => show win2_1.index t (1 : Fin 2) * 1 + 1 * (0 : Nat) = 0; omega

theorem acc2_last (c : Dev nD) (h : 49 < cfg2.N) (p : Fin 1024) (o : Fin 64) :
    (acc2 (F := Ideal) V c 49 h : S1024x64.Idx → EReal) (ix2 p o)
      = ∑ r : Fin 100000, oh ((V c main_v130 : S100000x1.Idx → BitVec 32) (ix2 r (0 : Fin 1))) p
          * (V c main_v126 : S100000x64.Idx → EReal) (ix2 r o) := by
  have key := fold_apply (fun t : Fin 50 => (iblk2 (F := Ideal) V c 1 t : Vec Ideal S2000x1 .i32))
    (fun t : Fin 50 => (iblk2 (F := Ideal) V c 0 t : Vec Ideal S2000x64 .f32))
    (fun n hn => acc2 (F := Ideal) V c n hn) (fun h => acc2_zero V c h) (fun n h => acc2_succ V c n h) p o 49 h
  refine key.trans ?_
  rw [← sum_blocks]
  refine Finset.sum_congr rfl fun t _ => Finset.sum_congr rfl fun y _ => ?_
  show oh (iblk2 (F := Ideal) V c 1 t (ix2 y (0 : Fin 1))) p * iblk2 (F := Ideal) V c 0 t (ix2 y o) = _
  exact congrArg₂ (fun w x => oh w p * x) (ids_block V c t y) (feats_block V c t y o)

theorem out_block (t : Fin cfg2.N) (p : Fin 1024) (o : Fin 64) :
    ((cfg2.win 2).blk t).view.emb (ix2 p o) = ix2 p o := by
  obtain ⟨-, -, -, -, e0, e1⟩ := idx_facts t
  refine funext fun a => Fin.ext ?_
  match a with
  | ⟨0, _⟩ => show win2_2.index t (0 : Fin 2) * 1024 + 1 * p.val = p.val; omega
  | ⟨1, _⟩ => show win2_2.index t (1 : Fin 2) * 64 + 1 * o.val = o.val; omega

theorem mem_out_block (t : Fin cfg2.N) (i : S1024x64.Idx) : i ∈ ((cfg2.win 2).blk t).view.set := by
  obtain ⟨-, -, -, -, e0, e1⟩ := idx_facts t
  show i ∈ ((View.whole main_v131).slice (win2_2.rect t)).set
  rw [View.set_slice_whole, Rect.mem_set_unit]
  intro a
  match a with
  | ⟨0, _⟩ =>
    show win2_2.index t (0 : Fin 2) * 1024 ≤ (i 0).val ∧ (i 0).val < win2_2.index t (0 : Fin 2) * 1024 + 1024
    have h0 : (i 0).val < 1024 := (i 0).isLt; omega
  | ⟨1, _⟩ =>
    show win2_2.index t (1 : Fin 2) * 64 ≤ (i 1).val ∧ (i 1).val < win2_2.index t (1 : Fin 2) * 64 + 64
    have h1 : (i 1).val < 64 := (i 1).isLt; omega

theorem read_out (G : S1024x64.Idx → EReal) (t : Fin cfg2.N) (p : Fin 1024) (o : Fin 64) :
    (((cfg2.win 2).blk t).view.read (Elt Ideal) G : S1024x64.Idx → EReal) (ix2 p o) = G (ix2 p o) := by
  show G (((cfg2.win 2).blk t).view.emb (ix2 p o)) = _
  rw [out_block]

theorem flushed_last (c : Dev nD) (t : Fin cfg2.N) (ht : t.val = 49) (p : Fin 1024) (o : Fin 64) :
    ((dat2 (F := Ideal) V c).flushed 2 t : S1024x64.Idx → EReal) (ix2 p o)
      = rg2 (V c main_v126) (V c main_v130) (ix2 p o) := by
  show ((cfg2.win 2).cut (grid2.coords t) ((dat2 (F := Ideal) V c).after 2 t) : S1024x64.Idx → EReal) (ix2 p o) = _
  rw [after2_2]
  obtain ⟨n, hn⟩ := t
  subst ht
  exact acc2_last V c hn p o

theorem arr2 (c : Dev nD) :
    ((dat2 (F := Ideal) V c).arrAt 2 cfg2.N : S1024x64.Idx → EReal) = rg2 (V c main_v126) (V c main_v130) := by
  refine (dat2 (F := Ideal) V c).arrAt_eq_of_cover 2 (rg2 (V c main_v126) (V c main_v130)) (fun t hf => ?_) (fun i => ?_)
  · have ht : t.val = 49 := by
      have h1 := (flush2_2 t).mp hf
      have h2 : t.val < 50 := t.isLt
      omega
    funext j
    obtain ⟨p, o, rfl⟩ : ∃ (p : Fin 1024) (o : Fin 64), j = ix2 p o := ⟨j 0, j 1, eq_ix2 j⟩
    exact (flushed_last V c t ht p o).trans (read_out (rg2 (V c main_v126) (V c main_v130)) t p o).symm
  · exact ⟨⟨49, by decide⟩, (flush2_2 _).mpr rfl, mem_out_block _ i⟩

end Array

end Cert.Bridge

end
-- ==== Proof.AggLinear.lean ====
/- A row scatter-add and a row gather read at an index, and the one algebraic law: a weighted sum over edges commutes with a right matrix product when every factor is real. -/
import proofs.«416730_j309237645609_2_alg».proof.Proof.RefRead
import Idealize.ShloMosaic.PureOps.Ideal.Laws
import Idealize.ShloMosaic.Lib.ValueIdx

noncomputable section

open scoped BigOperators

namespace Cert.Bridge

open Idealize.ShloMosaic Idealize.ShloMosaic.ValueIdx

section Rows
variable {N E C w : Nat}

abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

theorem rowScatter_start0 (j : (⟨2, ![E, C]⟩ : Shape).Idx) (idx : IVec ⟨2, ![E, 1]⟩ w) :
    (rowScatter N E C wf).start j idx (0 : Fin 2) = (idx (ix2 (j 0) 0)).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowScatter_start1 (j : (⟨2, ![E, C]⟩ : Shape).Idx) (idx : IVec ⟨2, ![E, 1]⟩ w) :
    (rowScatter N E C wf).start j idx (1 : Fin 2) = 0 := by
  unfold ScatterDims.start
  rw [dif_neg (show ¬ (1 : Fin 2) ∈ (rowScatter N E C wf).scatterDimsToOperandDims from
    (show ¬ (1 : Fin 2) ∈ ([0] : List (Fin 2)) by decide))]

theorem rowScatter_window0 (j : (⟨2, ![E, C]⟩ : Shape).Idx) :
    (rowScatter N E C wf).window j (0 : Fin 2) = 0 := by
  unfold ScatterDims.window
  rw [dif_neg (show ¬ (0 : Fin 2) ∈ (rowScatter N E C wf).sKept from
    (show ¬ (0 : Fin 2) ∈ (List.finRange 2).filter (fun a => a ∉ ([0] : List (Fin 2))) by decide))]

theorem rowScatter_window1 (j : (⟨2, ![E, C]⟩ : Shape).Idx) :
    (rowScatter N E C wf).window j (1 : Fin 2) = (j 1).val := by
  unfold ScatterDims.window
  rw [dif_pos (show (1 : Fin 2) ∈ (rowScatter N E C wf).sKept from
    (show (1 : Fin 2) ∈ (List.finRange 2).filter (fun a => a ∉ ([0] : List (Fin 2))) by decide))]
  rfl

theorem rowScatter_resultIdx (j : (⟨2, ![E, C]⟩ : Shape).Idx) (idx : IVec ⟨2, ![E, 1]⟩ w)
    (i : (⟨2, ![N, C]⟩ : Shape).Idx) :
    (rowScatter N E C wf).resultIdx? j idx = some i ↔
      (idx (ix2 (j 0) 0)).toInt = ((i 0).val : Int) ∧ (j 1).val = (i 1).val := by
  have h0 : (rowScatter N E C wf).start j idx (0 : Fin 2) + ((rowScatter N E C wf).window j (0 : Fin 2) : Int)
      = (idx (ix2 (j 0) 0)).toInt := by
    rw [rowScatter_start0, rowScatter_window0]; simp
  have h1 : (rowScatter N E C wf).start j idx (1 : Fin 2) + ((rowScatter N E C wf).window j (1 : Fin 2) : Int)
      = ((j 1).val : Int) := by
    rw [rowScatter_start1, rowScatter_window1]; simp
  have hi0 : (i 0).val < N := idx2_lt0 i
  have hi1 : (i 1).val < C := idx2_lt1 i
  have hj1 : (j 1).val < C := idx2_lt1 j
  unfold ScatterDims.resultIdx?
  split
  · rename_i h
    rw [Option.some.injEq]
    constructor
    · intro hf
      have e0 : ((rowScatter N E C wf).start j idx (0 : Fin 2) + ((rowScatter N E C wf).window j (0 : Fin 2) : Int)).toNat
          = (i 0).val := congrArg (fun f => (f (0 : Fin 2)).val) hf
      have e1 : ((rowScatter N E C wf).start j idx (1 : Fin 2) + ((rowScatter N E C wf).window j (1 : Fin 2) : Int)).toNat
          = (i 1).val := congrArg (fun f => (f (1 : Fin 2)).val) hf
      have g0 := (h (0 : Fin 2)).1
      rw [h0] at e0 g0
      rw [h1] at e1
      constructor <;> omega
    · rintro ⟨a0, a1⟩
      funext a; refine Fin.ext ?_
      match a with
      | ⟨0, _⟩ =>
        show ((rowScatter N E C wf).start j idx (0 : Fin 2) + ((rowScatter N E C wf).window j (0 : Fin 2) : Int)).toNat = (i 0).val
        rw [h0, a0]; simp
      | ⟨1, _⟩ =>
        show ((rowScatter N E C wf).start j idx (1 : Fin 2) + ((rowScatter N E C wf).window j (1 : Fin 2) : Int)).toNat = (i 1).val
        rw [h1, ← a1]; simp
  · rename_i h
    constructor
    · intro hh; exact absurd hh (by simp)
    · rintro ⟨a0, a1⟩
      exfalso; apply h
      intro a
      match a with
      | ⟨0, _⟩ =>
        show 0 ≤ (rowScatter N E C wf).start j idx (0 : Fin 2) + ((rowScatter N E C wf).window j (0 : Fin 2) : Int) ∧
          (rowScatter N E C wf).start j idx (0 : Fin 2) + ((rowScatter N E C wf).window j (0 : Fin 2) : Int) < (N : Int)
        rw [h0, a0]; constructor <;> omega
      | ⟨1, _⟩ =>
        show 0 ≤ (rowScatter N E C wf).start j idx (1 : Fin 2) + ((rowScatter N E C wf).window j (1 : Fin 2) : Int) ∧
          (rowScatter N E C wf).start j idx (1 : Fin 2) + ((rowScatter N E C wf).window j (1 : Fin 2) : Int) < (C : Int)
        rw [h1]; constructor <;> omega

/-- Entry (r, k) gains exactly the update rows whose index word, read signed, is r. -/
theorem rowScatterAdd_apply (x : (⟨2, ![N, C]⟩ : Shape).Idx → EReal) (idx : IVec ⟨2, ![E, 1]⟩ w)
    (upd : (⟨2, ![E, C]⟩ : Shape).Idx → EReal) (r : Fin N) (k : Fin C) :
    Ideal.hostScatterAdd (rowScatter N E C wf) x idx upd (ix2 r k)
      = x (ix2 r k) + ∑ e ∈ Finset.univ.filter (fun e : Fin E => (idx (ix2 e 0)).toInt = (r.val : Int)), upd (ix2 e k) := by
  unfold Ideal.hostScatterAdd
  congr 1
  have key : ∀ j : (⟨2, ![E, C]⟩ : Shape).Idx, (rowScatter N E C wf).resultIdx? j idx = some (ix2 r k) →
      (idx (ix2 (⟨(j 0).val, idx2_lt0 j⟩ : Fin E) 0)).toInt = (r.val : Int) ∧ j = ix2 (⟨(j 0).val, idx2_lt0 j⟩ : Fin E) k := by
    intro j hj
    have h := (rowScatter_resultIdx wf j idx (ix2 r k)).mp hj
    refine ⟨h.1, ?_⟩
    have h2 : (j 1).val = k.val := h.2
    funext a
    match a with
    | ⟨0, _⟩ => rfl
    | ⟨1, _⟩ => exact Fin.ext h2
  refine Finset.sum_nbij' (fun j => (⟨(j 0).val, idx2_lt0 j⟩ : Fin E)) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx wf (ix2 e k) idx (ix2 r k)).mpr ⟨(Finset.mem_filter.mp he).2, rfl⟩⟩
  · intro j hj
    exact (key j (Finset.mem_filter.mp hj).2).2.symm
  · intro e he; rfl
  · intro j hj
    exact congrArg upd (key j (Finset.mem_filter.mp hj).2).2

abbrev rowGather (N E C : Nat)
    (wg : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wg

def clampRow (N : Nat) (hN : 0 < N) {w : Nat} (b : BitVec w) : Fin N := ⟨min b.toInt.toNat (N - 1), by omega⟩

/-- Row e of the result is the operand's row named by index word e, clamped into range. -/
theorem rowGather_apply {α : Type} (hN : 0 < N)
    (wg : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGather N E C wg) x idx j = x (ix2 (clampRow N hN (idx (ix2 (j 0) 0))) (j 1)) := by
  unfold Host.gather
  congr 1
  funext a
  refine Fin.ext ?_
  have hnb : ∀ a : Fin 2, a ∉ (rowGather N E C wg).operandBatchingDims := fun a => List.not_mem_nil
  match a with
  | ⟨0, _⟩ =>
    show (rowGather N E C wg).start j idx (0 : Fin 2) + (rowGather N E C wg).batchCoord j (0 : Fin 2)
      + (rowGather N E C wg).offCoord j (0 : Fin 2) = _
    rw [GatherDims.batchCoord_eq_zero _ _ _ (hnb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wg).startIndexMap from List.mem_singleton.mpr rfl)]
    have hsi : (rowGather N E C wg).siIdx j ⟨List.idxOf (0 : Fin 2) (rowGather N E C wg).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowGather N E C wg).start j idx (1 : Fin 2) + (rowGather N E C wg).batchCoord j (1 : Fin 2)
      + (rowGather N E C wg).offCoord j (1 : Fin 2) = (j 1).val
    rw [GatherDims.batchCoord_eq_zero _ _ _ (hnb 1)]
    have hs : (rowGather N E C wg).start j idx (1 : Fin 2) = 0 := by
      unfold GatherDims.start
      rw [dif_neg (show ¬ (1 : Fin 2) ∈ (rowGather N E C wg).startIndexMap from
        (show ¬ (1 : Fin 2) ∈ ([0] : List (Fin 2)) by decide))]
    have ho : (rowGather N E C wg).offCoord j (1 : Fin 2) = (j 1).val := by
      unfold GatherDims.offCoord
      rw [dif_pos (show (1 : Fin 2) ∈ (rowGather N E C wg).sKept from
        (show (1 : Fin 2) ∈ (List.finRange 2).filter (fun a => a ∉ (([0] : List (Fin 2)) ++ [])) by decide))]
      rfl
    rw [hs, ho]; simp

end Rows

theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- Finite sums of reals exchange and factor: the sum over edges of (x W) n is (the sum over edges of x n) W. -/
theorem agg_linear {ι : Type} (H : Finset ι) (X : ι → Fin 64 → ℝ) (W : Fin 64 → ℝ) (n : ι → ℝ) :
    (∑ e ∈ H, (∑ k : Fin 64, ((X e k : ℝ) : EReal) * ((W k : ℝ) : EReal)) * ((n e : ℝ) : EReal))
      = ∑ k : Fin 64, (∑ e ∈ H, ((X e k : ℝ) : EReal) * ((n e : ℝ) : EReal)) * ((W k : ℝ) : EReal) := by
  simp only [← EReal.coe_mul, coe_sum]
  congr 1
  simp only [Finset.sum_mul]
  rw [Finset.sum_comm]
  refine Finset.sum_congr rfl fun k _ => Finset.sum_congr rfl fun e _ => ?_
  ring

theorem dinv_real (d : EReal) :
    ∃ t : ℝ, Scalar.select (Ideal.cmp .ogt d 0) (Ideal.rsqrt d) (0 : EReal) = (t : EReal) := by
  induction d using EReal.rec with
  | bot =>
    refine ⟨0, ?_⟩
    have : Ideal.cmp .ogt (⊥ : EReal) 0 = 0#1 := by simp [Ideal.cmp]
    rw [this, select_zero]; rfl
  | coe r =>
    by_cases hr : 0 < r
    · refine ⟨(Real.sqrt r)⁻¹, ?_⟩
      have : Ideal.cmp .ogt (r : EReal) 0 = 1#1 := by
        simp [Ideal.cmp, hr]
      rw [this, select_one, Ideal.rsqrt_coe, if_neg (not_lt.mpr hr.le), if_neg hr.ne']
    · refine ⟨0, ?_⟩
      have : Ideal.cmp .ogt (r : EReal) 0 = 0#1 := by
        simp [Ideal.cmp, hr]
      rw [this, select_zero]; rfl
  | top =>
    refine ⟨0, ?_⟩
    have : Ideal.cmp .ogt (⊤ : EReal) 0 = 1#1 := by simp [Ideal.cmp]
    rw [this, select_one]; rfl

open Cert.ReferenceIdeal Cert.ReferenceIdeal.ReadP

theorem rec_scat64 : scatter_S50000x64_S850000x1_S850000x64_1_0_0_1
    = rowScatter 50000 850000 64 Gen.scatter_S50000x64_S850000x1_S850000x64_1_0_0_1_wf := rfl
theorem rec_scat128 : scatter_S50000x128_S850000x1_S850000x128_1_0_0_1
    = rowScatter 50000 850000 128 Gen.scatter_S50000x128_S850000x1_S850000x128_1_0_0_1_wf := rfl
theorem rec_gath64 : gather_S50000x64_S850000x1_S850000x64_1_0_n_n_0_1_164
    = rowGather 50000 850000 64 Gen.gather_S50000x64_S850000x1_S850000x64_1_0_n_n_0_1_164_wf := rfl
theorem rec_gath128 : gather_S50000x128_S850000x1_S850000x128_1_0_n_n_0_1_1128
    = rowGather 50000 850000 128 Gen.gather_S50000x128_S850000x1_S850000x128_1_0_n_n_0_1_1128_wf := rfl

theorem pos50000 : 0 < 50000 := by norm_num

theorem scat64_apply (x : FVec Ideal S50000x64 .f32) (idx : IVec S850000x1 32) (upd : FVec Ideal S850000x64 .f32)
    (r : Fin 50000) (k : Fin 64) :
    Host.scatterAdd scatter_S50000x64_S850000x1_S850000x64_1_0_0_1 x idx upd (ix2 r k)
      = x (ix2 r k) + ∑ e ∈ Finset.univ.filter (fun e : Fin 850000 => (idx (ix2 e 0)).toInt = (r.val : Int)),
          upd (ix2 e k) := by
  unfold Host.scatterAdd
  rw [Ideal.hostScatterAdd_def, rec_scat64]
  exact rowScatterAdd_apply _ x idx upd r k

theorem scat128_apply (x : FVec Ideal S50000x128 .f32) (idx : IVec S850000x1 32) (upd : FVec Ideal S850000x128 .f32)
    (r : Fin 50000) (j : Fin 128) :
    Host.scatterAdd scatter_S50000x128_S850000x1_S850000x128_1_0_0_1 x idx upd (ix2 r j)
      = x (ix2 r j) + ∑ e ∈ Finset.univ.filter (fun e : Fin 850000 => (idx (ix2 e 0)).toInt = (r.val : Int)),
          upd (ix2 e j) := by
  unfold Host.scatterAdd
  rw [Ideal.hostScatterAdd_def, rec_scat128]
  exact rowScatterAdd_apply _ x idx upd r j

theorem gath64_apply (f : FVec Ideal S50000x64 .f32) (idx : IVec S850000x1 32) (e : Fin 850000) (k : Fin 64) :
    Host.gather gather_S50000x64_S850000x1_S850000x64_1_0_n_n_0_1_164 f idx (ix2 e k)
      = f (ix2 (clampRow 50000 pos50000 (idx (ix2 e 0))) k) := by
  rw [rec_gath64]
  exact rowGather_apply pos50000 _ f idx (ix2 e k)

theorem gath128_apply (f : FVec Ideal S50000x128 .f32) (idx : IVec S850000x1 32) (e : Fin 850000) (j : Fin 128) :
    Host.gather gather_S50000x128_S850000x1_S850000x128_1_0_n_n_0_1_1128 f idx (ix2 e j)
      = f (ix2 (clampRow 50000 pos50000 (idx (ix2 e 0))) j) := by
  rw [rec_gath128]
  exact rowGather_apply pos50000 _ f idx (ix2 e j)

def agg64 (x1 : IVec S2x800000 32) (f : FVec Ideal S50000x64 .f32) : FVec Ideal S50000x64 .f32 :=
  Host.scatterAdd scatter_S50000x64_S850000x1_S850000x64_1_0_0_1 (val_main_v82 (F := Ideal)) (val_main_v83 (F := Ideal) x1)
    (mulf (Host.gather gather_S50000x64_S850000x1_S850000x64_1_0_n_n_0_1_164 f (val_main_v77 (F := Ideal) x1))
      (val_main_v80 (F := Ideal) x1))

theorem v84_eq (x0 : FVec Ideal S50000x64 .f32) (x1 : IVec S2x800000 32) (x6 : FVec Ideal S64x128 .f32)
    (x7 : FVec Ideal S128 .f32) (x8 : FVec Ideal S128x64 .f32) :
    val_main_v84 (F := Ideal) x0 x1 x6 x7 x8 = agg64 x1 (val_main_v48 (F := Ideal) x0 x1 x6 x7 x8) := rfl

abbrev tgt (x1 : IVec S2x800000 32) (e : Fin 850000) : BitVec 32 := val_main_v83 (F := Ideal) x1 (ix2 e 0)

abbrev src (x1 : IVec S2x800000 32) (e : Fin 850000) : Fin 50000 :=
  clampRow 50000 pos50000 (val_main_v77 (F := Ideal) x1 (ix2 e 0))

abbrev nrm (x1 : IVec S2x800000 32) (e : Fin 850000) : EReal := val_main_v71 (F := Ideal) x1 (ix1 e)

theorem v80_at (x1 : IVec S2x800000 32) (e : Fin 850000) (k : Fin 64) :
    val_main_v80 (F := Ideal) x1 (ix2 e k) = val_main_v71 (F := Ideal) x1 (ix1 e) := by
  rw [val_main_v80_apply, val_main_v79_apply]
  exact congrArg (val_main_v71 (F := Ideal) x1) (funext fun a => match a with | ⟨0, _⟩ => rfl)

theorem v82_at (i : S50000x64.Idx) : val_main_v82 (F := Ideal) i = 0 := by
  rw [val_main_v82_apply, val_main_cst_19_apply, Ideal.ofBits_def, Ideal.ofBits_zero_f32]

theorem agg64_apply (x1 : IVec S2x800000 32) (f : FVec Ideal S50000x64 .f32) (r : Fin 50000) (k : Fin 64) :
    agg64 x1 f (ix2 r k) = ∑ e ∈ Finset.univ.filter (fun e : Fin 850000 => (tgt x1 e).toInt = (r.val : Int)),
      f (ix2 (src x1 e) k) * nrm x1 e := by
  unfold agg64
  rw [scat64_apply, v82_at, zero_add]
  refine Finset.sum_congr rfl fun e _ => ?_
  rw [mulf_apply, v80_at, gath64_apply]

theorem v36_eq (x1 : IVec S2x800000 32) : val_main_v36 (F := Ideal) x1 = val_main_v77 (F := Ideal) x1 := rfl
theorem v42_eq (x1 : IVec S2x800000 32) : val_main_v42 (F := Ideal) x1 = val_main_v83 (F := Ideal) x1 := rfl
theorem v30_eq (x1 : IVec S2x800000 32) : val_main_v30 (F := Ideal) x1 = val_main_v71 (F := Ideal) x1 := rfl

theorem v39_at (x1 : IVec S2x800000 32) (e : Fin 850000) (j : Fin 128) :
    val_main_v39 (F := Ideal) x1 (ix2 e j) = val_main_v71 (F := Ideal) x1 (ix1 e) := by
  rw [val_main_v39_apply, val_main_v38_apply, v30_eq]
  exact congrArg (val_main_v71 (F := Ideal) x1) (funext fun a => match a with | ⟨0, _⟩ => rfl)

theorem v41_at (i : S50000x128.Idx) : val_main_v41 (F := Ideal) i = 0 := by
  rw [val_main_v41_apply, val_main_cst_8_apply, Ideal.ofBits_def, Ideal.ofBits_zero_f32]

theorem v7_at (x0 : FVec Ideal S50000x64 .f32) (x6 : FVec Ideal S64x128 .f32) (s : Fin 50000) (j : Fin 128) :
    val_main_v7 (F := Ideal) x0 x6 (ix2 s j) = ∑ k : Fin 64, x0 (ix2 s k) * x6 (ix2 k j) := by
  rw [val_main_v7_apply]
  refine Finset.sum_congr rfl fun k _ => ?_
  have hl : lidx_main_v7 (ix2 s j) k = ix2 s k := funext fun a => match a with | ⟨0, _⟩ => rfl | ⟨1, _⟩ => rfl
  have hr : ridx_main_v7 (ix2 s j) k = ix2 k j := funext fun a => match a with | ⟨0, _⟩ => rfl | ⟨1, _⟩ => rfl
  rw [hl, hr]

theorem v43_read (x0 : FVec Ideal S50000x64 .f32) (x1 : IVec S2x800000 32) (x6 : FVec Ideal S64x128 .f32)
    (r : Fin 50000) (j : Fin 128) :
    val_main_v43 (F := Ideal) x0 x1 x6 (ix2 r j)
      = ∑ e ∈ Finset.univ.filter (fun e : Fin 850000 => (tgt x1 e).toInt = (r.val : Int)),
          (∑ k : Fin 64, x0 (ix2 (src x1 e) k) * x6 (ix2 k j)) * nrm x1 e := by
  unfold val_main_v43
  rw [scat128_apply, v41_at, zero_add, v42_eq]
  refine Finset.sum_congr rfl fun e _ => ?_
  unfold val_main_v40 val_main_v37
  rw [mulf_apply, v39_at, gath128_apply, v36_eq, v7_at]

theorem nrm_real (x1 : IVec S2x800000 32) (e : Fin 850000) : ∃ t : ℝ, nrm x1 e = (t : EReal) := by
  have hd : ∀ i, ∃ t : ℝ, val_main_v56 (F := Ideal) x1 i = (t : EReal) := by
    intro i
    rw [val_main_v56_apply, val_main_v54_apply, val_main_v55_apply, val_main_call2_v1_apply, val_main_call2_v0_apply,
      val_main_cst_12_apply, val_main_v53_apply, val_main_cst_11_apply, Ideal.ofBits_def, Ideal.ofBits_zero_f32]
    generalize val_main_v52 (F := Ideal) x1 i = d
    exact dinv_real d
  show ∃ t : ℝ, val_main_v71 (F := Ideal) x1 (ix1 e) = (t : EReal)
  unfold val_main_v71 val_main_v63 val_main_v70 Host.gather
  obtain ⟨a, ha⟩ := hd (gather_S50000_S850000x1_S850000_n_0_n_n_0_1_1.operandIdx (ix1 e) (val_main_v62 (F := Ideal) x1))
  obtain ⟨b, hb⟩ := hd (gather_S50000_S850000x1_S850000_n_0_n_n_0_1_1.operandIdx (ix1 e) (val_main_v69 (F := Ideal) x1))
  refine ⟨a * b, ?_⟩
  rw [mulf_apply, ha, hb, EReal.coe_mul]

/-- Layer 1's aggregation of x W, entry by entry, is the aggregation of x times W: every factor is a real, so the sums exchange. -/
theorem v43_apply (x0 : FVec Ideal S50000x64 .f32) (x1 : IVec S2x800000 32) (x6 : FVec Ideal S64x128 .f32)
    (hx : ∀ i, ∃ t : ℝ, x0 i = (t : EReal)) (hw : ∀ i, ∃ t : ℝ, x6 i = (t : EReal)) (r : Fin 50000) (j : Fin 128) :
    val_main_v43 (F := Ideal) x0 x1 x6 (ix2 r j) = ∑ k : Fin 64, agg64 x1 x0 (ix2 r k) * x6 (ix2 k j) := by
  rw [v43_read]
  simp only [agg64_apply]
  choose xr hxr using hx
  choose wr hwr using hw
  choose nr hnr using nrm_real x1
  simp only [hxr, hwr, hnr]
  exact agg_linear _ (fun e k => xr (ix2 (src x1 e) k)) (fun k => wr (ix2 k j)) nr

end Cert.Bridge

end
-- ==== Proof.Join.lean ====
import Idealize.ShloMosaic.Lib.StableHlo.Run

noncomputable section

namespace Cert.Join

open Idealize.ShloMosaic Idealize.ShloMosaic.StableHlo

/-- Two arrays joined along an axis, with the two operands as plain arguments. -/
def cat2 {α : Type} (t : Shape) (a : Fin t.rank) (s₁ s₂ : Shape) (h : Shape.Concatenates [s₁, s₂] t a)
    (x : s₁.Idx → α) (y : s₂.Idx → α) : t.Idx → α := concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- Reads a buffer after a line of host operations in one pass: each operation's result at its own buffer is its
    function's value, at any other buffer what was there; a join of two arrays is read through to its operands. -/
macro "after_results_join" "[" ls:Lean.Parser.Tactic.simpLemma,* "]" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cat2_eq, $ls,*])

end Cert.Join

end
-- ==== Proof.KFront.lean ====
/- What the kernel's first host stretches compute (edge lists with self loops, degrees, edge weights, the width-64 aggregation of both sides, stacked), and its two dense regions against the reference's first two layers. -/
import proofs.«416730_j309237645609_2_alg».proof.Proof.Gen.KernelIdeal.Regions
import proofs.«416730_j309237645609_2_alg».proof.Proof.RefRead
import proofs.«416730_j309237645609_2_alg».proof.Proof.Closed
import proofs.«416730_j309237645609_2_alg».proof.Proof.AggLinear
import proofs.«416730_j309237645609_2_alg».proof.Proof.Join
import Idealize.ShloMosaic.Lib.StableHlo.Run
import Idealize.ShloMosaic.Lib.Pipeline.Value
import Idealize.ShloMosaic.Lib.ValueIdx
import Idealize.ShloMosaic.PureOps.Ideal.Laws

set_option maxRecDepth 4096

noncomputable section

namespace Cert.Bridge

open Idealize.ShloMosaic Idealize.ShloMosaic.TcCoe Idealize.ShloMosaic.ValueIdx Idealize.SL.Sem
open Cert.KernelIdeal Cert.KernelIdeal.Gen Cert.Join
open Cert.ReferenceIdeal.ReadP (val_main_v43 val_main_v44 val_main_v45 val_main_v46 val_main_v47 val_main_v48 idx_main_v44 idx_main_v45
  lidx_main_v48 ridx_main_v48 val_main_v44_apply val_main_v45_apply val_main_v46_apply val_main_v47_apply
  val_main_v48_apply val_main_call1_v0 val_main_call1_cst val_main_call1_v0_apply val_main_call1_cst_apply)

namespace KFront

def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

def edgeNorm (w : FVec Ideal S50000 .f32) (s d : IVec S850000 32) : FVec Ideal S850000 .f32 :=
  mulf (Host.gather gather_S50000_S850000x1_S850000_n_0_n_n_0_1_1 w (wrapCol s))
    (Host.gather gather_S50000_S850000x1_S850000_n_0_n_n_0_1_1 w (wrapCol d))

def kagg (x : FVec Ideal S50000x64 .f32) (s d : IVec S850000 32) (n : FVec Ideal S850000 .f32) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 d)
    (mulf (Host.gather gather_S50000x64_S850000x1_S850000x64_1_0_n_n_0_1_164 x (wrapCol s))
      (broadcastInDim S850000x64 ![0, 1] bcast_S850000x1_S850000x64_0_1
        (broadcastInDim S850000x1 ![0] bcast_S850000_S850000x1_0 n)))

section Stretch
variable (W : Valuation τ sig (Elt Ideal))

set_option maxHeartbeats 1000000 in

theorem st4_v86 : (StableHlo.after hostOps0_4 W (Proc.devRef .tc main_v86) : S100000x64.Idx → EReal)
    = concatenate S100000x64 0
        [⟨S50000x64, kagg (W (Proc.devRef .tc main_arg0)) (W (Proc.devRef .tc main_v3)) (W (Proc.devRef .tc main_v6)) (W (Proc.devRef .tc main_v29))⟩,
         ⟨S50000x64, kagg (W (Proc.devRef .tc main_arg3)) (W (Proc.devRef .tc main_v33)) (W (Proc.devRef .tc main_v36))
            (edgeNorm (W (Proc.devRef .tc main_v44)) (W (Proc.devRef .tc main_v33)) (W (Proc.devRef .tc main_v36)))⟩]
        concatenates_S50000x64_S50000x64_S100000x64_d0 := by
  after_results_join []
  rfl

theorem st4_v87 : (StableHlo.after hostOps0_4 W (Proc.devRef .tc main_v87) : S1x128.Idx → EReal)
    = shapeCast S1x128 (W (Proc.devRef .tc main_arg7) : S128.Idx → EReal) shapeCasts_S128_S1x128 := by
  after_results_simp
  rfl

end Stretch

def kSrc (x1 : IVec S2x800000 32) : IVec S850000 32 :=
  concatenate S850000 0
    [⟨S800000, shapeCast S800000 (extractStridedSlice S1x800000 ![0, 0] x1 slices_S2x800000_S1x800000_0_0) shapeCasts_S1x800000_S800000⟩,
     ⟨S50000, iotaInDim S50000 32 0⟩] concatenates_S800000_S50000_S850000_d0

def kDst (x1 : IVec S2x800000 32) : IVec S850000 32 :=
  concatenate S850000 0
    [⟨S800000, shapeCast S800000 (extractStridedSlice S1x800000 ![1, 0] x1 slices_S2x800000_S1x800000_1_0) shapeCasts_S1x800000_S800000⟩,
     ⟨S50000, iotaInDim S50000 32 0⟩] concatenates_S800000_S50000_S850000_d0

def kDeg (x1 : IVec S2x800000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 (kDst x1))
    (broadcastInDim S850000 ![] bcast_S_S850000 (constant (F := Ideal) S_ .f32 0x3F800000#32))

def kFac (x1 : IVec S2x800000 32) : FVec Ideal S50000 .f32 :=
  select (cmpf .ogt (kDeg x1) (broadcastInDim S50000 ![] bcast_S_S50000 (constant (F := Ideal) S_ .f32 0x00000000#32)))
    (Host.rsqrt (kDeg x1))
    (broadcastInDim S50000 ![] bcast_S_S50000 (id (constant (F := Ideal) S_ .f32 0x00000000#32)))

section Prefix
variable (W : Valuation τ sig (Elt Ideal))

theorem st0_v3 : (StableHlo.after hostOps0 W (Proc.devRef .tc main_v3) : S850000.Idx → BitVec 32)
    = kSrc (W (Proc.devRef .tc main_arg1)) := by
  after_results; rfl

theorem st0_v6 : (StableHlo.after hostOps0 W (Proc.devRef .tc main_v6) : S850000.Idx → BitVec 32)
    = kDst (W (Proc.devRef .tc main_arg1)) := by
  after_results; rfl

theorem st0_v12 : (StableHlo.after hostOps0 W (Proc.devRef .tc main_v12) : S50000.Idx → BitVec 1)
    = cmpf .ogt (kDeg (W (Proc.devRef .tc main_arg1)))
        (broadcastInDim S50000 ![] bcast_S_S50000 (constant (F := Ideal) S_ .f32 0x00000000#32)) := by
  after_results; rfl

theorem st0_v13 : (StableHlo.after hostOps0 W (Proc.devRef .tc main_v13) : S50000.Idx → EReal)
    = Host.rsqrt (kDeg (W (Proc.devRef .tc main_arg1))) := by
  after_results; rfl

theorem st0_cst2 : (StableHlo.after hostOps0 W (Proc.devRef .tc main_cst_2) : S_.Idx → EReal)
    = constant (F := Ideal) S_ .f32 0x00000000#32 := by
  after_results

theorem st1_v14 : (StableHlo.after hostOps0_1 W (Proc.devRef .tc main_v14) : S50000.Idx → EReal)
    = select (W (Proc.devRef .tc main_v12) : S50000.Idx → BitVec 1) (W (Proc.devRef .tc main_v13) : S50000.Idx → EReal)
        (broadcastInDim S50000 ![] bcast_S_S50000 (id (W (Proc.devRef .tc main_cst_2) : S_.Idx → EReal))) := by
  after_results_simp; rfl

theorem st2_v29 : (StableHlo.after hostOps0_2 W (Proc.devRef .tc main_v29) : S850000.Idx → EReal)
    = edgeNorm (W (Proc.devRef .tc main_v14)) (W (Proc.devRef .tc main_v3)) (W (Proc.devRef .tc main_v6)) := by
  after_results_simp; rfl

theorem st2_v33 : (StableHlo.after hostOps0_2 W (Proc.devRef .tc main_v33) : S850000.Idx → BitVec 32)
    = kSrc (W (Proc.devRef .tc main_arg4)) := by
  after_results; rfl

theorem st2_v36 : (StableHlo.after hostOps0_2 W (Proc.devRef .tc main_v36) : S850000.Idx → BitVec 32)
    = kDst (W (Proc.devRef .tc main_arg4)) := by
  after_results; rfl

set_option maxHeartbeats 1000000 in
theorem st2_v42 : (StableHlo.after hostOps0_2 W (Proc.devRef .tc main_v42) : S50000.Idx → BitVec 1)
    = cmpf .ogt (kDeg (W (Proc.devRef .tc main_arg4)))
        (broadcastInDim S50000 ![] bcast_S_S50000 (constant (F := Ideal) S_ .f32 0x00000000#32)) := by
  after_results; rfl

set_option maxHeartbeats 1000000 in
theorem st2_v43 : (StableHlo.after hostOps0_2 W (Proc.devRef .tc main_v43) : S50000.Idx → EReal)
    = Host.rsqrt (kDeg (W (Proc.devRef .tc main_arg4))) := by
  after_results; rfl

theorem st2_cst9 : (StableHlo.after hostOps0_2 W (Proc.devRef .tc main_cst_9) : S_.Idx → EReal)
    = constant (F := Ideal) S_ .f32 0x00000000#32 := by
  after_results_simp

theorem st3_v44 : (StableHlo.after hostOps0_3 W (Proc.devRef .tc main_v44) : S50000.Idx → EReal)
    = select (W (Proc.devRef .tc main_v42) : S50000.Idx → BitVec 1) (W (Proc.devRef .tc main_v43) : S50000.Idx → EReal)
        (broadcastInDim S50000 ![] bcast_S_S50000 (id (W (Proc.devRef .tc main_cst_9) : S_.Idx → EReal))) := by
  after_results_simp; rfl

end Prefix

def kside (x1 : IVec S2x800000 32) (x : FVec Ideal S50000x64 .f32) : FVec Ideal S50000x64 .f32 :=
  kagg x (kSrc x1) (kDst x1) (edgeNorm (kFac x1) (kSrc x1) (kDst x1))

section Core
variable (m : (ℓ : Loc nD τ sig) → Buf (Elt Ideal) ℓ) (c : Dev nD)

/-- A buffer none of the first four stretches writes still holds its launch contents before the fifth. -/
theorem V4_V0 (r : Ref sig .tc) (h1 : r ∉ hostOps0_W := by decide) (h2 : r ∉ hostOps0_1_W := by decide)
    (h3 : r ∉ hostOps0_2_W := by decide) (h4 : r ∉ hostOps0_3_W := by decide) : V4 m c r = m ((c : Thread nD τ).loc r) :=
  (V4_of m c r h4).trans <| (V3_of m c r h3).trans <| (V2_of m c r h2).trans <| (V1_of m c r h1).trans rfl
theorem V4_arg0 : V4 m c main_arg0 = m ((c : Thread nD τ).loc main_arg0) := V4_V0 m c main_arg0
theorem V4_arg3 : V4 m c main_arg3 = m ((c : Thread nD τ).loc main_arg3) := V4_V0 m c main_arg3
theorem V4_arg7 : V4 m c main_arg7 = m ((c : Thread nD τ).loc main_arg7) := V4_V0 m c main_arg7
theorem V2_arg4 : V2 m c main_arg4 = m ((c : Thread nD τ).loc main_arg4) :=
  (V2_of m c main_arg4 (by decide)).trans <| (V1_of m c main_arg4 (by decide)).trans rfl
theorem V5_arg6 : V5 m c main_arg6 = m ((c : Thread nD τ).loc main_arg6) :=
  (V5_of m c main_arg6 (by decide)).trans (V4_V0 m c main_arg6)

theorem V1_v3 : (V1 m c main_v3 : S850000.Idx → BitVec 32) = kSrc (m ((c : Thread nD τ).loc main_arg1)) := st0_v3 (V0 m c)
theorem V1_v6 : (V1 m c main_v6 : S850000.Idx → BitVec 32) = kDst (m ((c : Thread nD τ).loc main_arg1)) := st0_v6 (V0 m c)
theorem V2_v3 : (V2 m c main_v3 : S850000.Idx → BitVec 32) = kSrc (m ((c : Thread nD τ).loc main_arg1)) :=
  (V2_of m c main_v3 (by decide)).trans (V1_v3 m c)
theorem V2_v6 : (V2 m c main_v6 : S850000.Idx → BitVec 32) = kDst (m ((c : Thread nD τ).loc main_arg1)) :=
  (V2_of m c main_v6 (by decide)).trans (V1_v6 m c)
theorem V4_v3 : (V4 m c main_v3 : S850000.Idx → BitVec 32) = kSrc (m ((c : Thread nD τ).loc main_arg1)) :=
  (V4_of m c main_v3 (by decide)).trans <| (V3_of m c main_v3 (by decide)).trans (V2_v3 m c)
theorem V4_v6 : (V4 m c main_v6 : S850000.Idx → BitVec 32) = kDst (m ((c : Thread nD τ).loc main_arg1)) :=
  (V4_of m c main_v6 (by decide)).trans <| (V3_of m c main_v6 (by decide)).trans (V2_v6 m c)

theorem V2_v14 : (V2 m c main_v14 : S50000.Idx → EReal) = kFac (m ((c : Thread nD τ).loc main_arg1)) := by
  have h := st1_v14 (V1 m c)
  rw [show (V1 m c (Proc.devRef .tc main_v12) : S50000.Idx → BitVec 1) = _ from st0_v12 (V0 m c),
    show (V1 m c (Proc.devRef .tc main_v13) : S50000.Idx → EReal) = _ from st0_v13 (V0 m c),
    show (V1 m c (Proc.devRef .tc main_cst_2) : S_.Idx → EReal) = _ from st0_cst2 (V0 m c)] at h
  exact h

theorem V4_v29 : (V4 m c main_v29 : S850000.Idx → EReal)
    = edgeNorm (kFac (m ((c : Thread nD τ).loc main_arg1))) (kSrc (m ((c : Thread nD τ).loc main_arg1))) (kDst (m ((c : Thread nD τ).loc main_arg1))) := by
  have h := st2_v29 (V2 m c)
  rw [V2_v14 m c, V2_v3 m c, V2_v6 m c] at h
  exact (V4_of m c main_v29 (by decide)).trans h

theorem V4_v33 : (V4 m c main_v33 : S850000.Idx → BitVec 32) = kSrc (m ((c : Thread nD τ).loc main_arg4)) := by
  have h := st2_v33 (V2 m c)
  rw [V2_arg4 m c] at h
  exact (V4_of m c main_v33 (by decide)).trans h
theorem V4_v36 : (V4 m c main_v36 : S850000.Idx → BitVec 32) = kDst (m ((c : Thread nD τ).loc main_arg4)) := by
  have h := st2_v36 (V2 m c)
  rw [V2_arg4 m c] at h
  exact (V4_of m c main_v36 (by decide)).trans h

theorem V4_v44 : (V4 m c main_v44 : S50000.Idx → EReal) = kFac (m ((c : Thread nD τ).loc main_arg4)) := by
  have h := st3_v44 (V3 m c)
  rw [show (V3 m c (Proc.devRef .tc main_v42) : S50000.Idx → BitVec 1) = _ from st2_v42 (V2 m c),
    show (V3 m c (Proc.devRef .tc main_v43) : S50000.Idx → EReal) = _ from st2_v43 (V2 m c),
    show (V3 m c (Proc.devRef .tc main_cst_9) : S_.Idx → EReal) = _ from st2_cst9 (V2 m c), V2_arg4 m c] at h
  exact h

theorem V5_v86 : (V5 m c main_v86 : S100000x64.Idx → EReal)
    = concatenate S100000x64 0
        [⟨S50000x64, kside (m ((c : Thread nD τ).loc main_arg1)) (m ((c : Thread nD τ).loc main_arg0))⟩,
         ⟨S50000x64, kside (m ((c : Thread nD τ).loc main_arg4)) (m ((c : Thread nD τ).loc main_arg3))⟩]
        concatenates_S50000x64_S50000x64_S100000x64_d0 := by
  have h := st4_v86 (V4 m c)
  rw [V4_arg0 m c, V4_v3 m c, V4_v6 m c, V4_v29 m c, V4_arg3 m c, V4_v33 m c, V4_v36 m c, V4_v44 m c] at h
  exact h

theorem V5_v87 : (V5 m c main_v87 : S1x128.Idx → EReal)
    = shapeCast S1x128 (m ((c : Thread nD τ).loc main_arg7) : S128.Idx → EReal) shapeCasts_S128_S1x128 := by
  have h := st4_v87 (V4 m c)
  rw [V4_arg7 m c] at h
  exact h

end Core

theorem stack_lo (A1 A2 : FVec Ideal S50000x64 .f32) (r : Fin 100000) (h : r.val < 50000) (k : Fin 64) :
    concatenate S100000x64 0 [⟨S50000x64, A1⟩, ⟨S50000x64, A2⟩] concatenates_S50000x64_S50000x64_S100000x64_d0 (ix2 r k)
      = A1 (ix2 (⟨r.val, h⟩ : Fin 50000) k) :=
  concatenate_pair_apply_left 0 A1 A2 concatenates_S50000x64_S50000x64_S100000x64_d0 (ix2 r k) rfl
    (ix2 (⟨r.val, h⟩ : Fin 50000) k) (fun b => match b with | ⟨0, _⟩ => rfl | ⟨1, _⟩ => rfl)

theorem stack_hi (A1 A2 : FVec Ideal S50000x64 .f32) (r : Fin 100000) (h : ¬ r.val < 50000) (k : Fin 64) :
    concatenate S100000x64 0 [⟨S50000x64, A1⟩, ⟨S50000x64, A2⟩] concatenates_S50000x64_S50000x64_S100000x64_d0 (ix2 r k)
      = A2 (ix2 (⟨r.val - 50000, by have := r.isLt; omega⟩ : Fin 50000) k) :=
  concatenate_pair_apply_right 0 A1 A2 concatenates_S50000x64_S50000x64_S100000x64_d0 (ix2 r k) rfl rfl
    (ix2 (⟨r.val - 50000, by have := r.isLt; omega⟩ : Fin 50000) k)
    (fun b hb => match b, hb with | ⟨0, _⟩, hb => absurd rfl hb | ⟨1, _⟩, _ => rfl)
    (by show r.val - 50000 + 50000 = r.val; omega)

theorem bias_row (x7 : FVec Ideal S128 .f32) (j : Fin 128) :
    shapeCast S1x128 x7 shapeCasts_S128_S1x128 (ix2 (0 : Fin 1) j) = x7 (ix1 j) :=
  shapeCast_apply x7 shapeCasts_S128_S1x128 (ix2 (0 : Fin 1) j) (ix1 j) (by
    rw [Shape.rowMajor_val_two, Shape.rowMajor_val_one]; show j.val = 0 * 128 + j.val; omega)

theorem ref_hidden1 (x0 : FVec Ideal S50000x64 .f32) (x1 : IVec S2x800000 32) (x6 : FVec Ideal S64x128 .f32) (x7 : FVec Ideal S128 .f32)
    (hx : ∀ i, ∃ t : ℝ, x0 i = (t : EReal)) (hw : ∀ i, ∃ t : ℝ, x6 i = (t : EReal)) (r : Fin 50000) (j : Fin 128) :
    val_main_v47 (F := Ideal) x0 x1 x6 x7 (ix2 r j)
      = max ((∑ k : Fin 64, agg64 x1 x0 (ix2 r k) * x6 (ix2 k j)) + x7 (ix1 j)) 0 := by
  have e : idx_main_v44 (idx_main_v45 (ix2 r j)) = ix1 j := funext fun a => match a with | ⟨0, _⟩ => rfl
  rw [val_main_v47_apply, val_main_v46_apply, val_main_v45_apply, val_main_v44_apply, val_main_call1_v0_apply,
    val_main_call1_cst_apply, v43_apply x0 x1 x6 hx hw r j, e]
  simp only [Ideal.addf_def, Ideal.maximumf_def, Ideal.ofBits_def, Ideal.ofBits_zero_f32]

theorem ref_prod1 (x0 : FVec Ideal S50000x64 .f32) (x1 : IVec S2x800000 32) (x6 : FVec Ideal S64x128 .f32) (x7 : FVec Ideal S128 .f32)
    (x8 : FVec Ideal S128x64 .f32) (r : Fin 50000) (o : Fin 64) :
    val_main_v48 (F := Ideal) x0 x1 x6 x7 x8 (ix2 r o)
      = ∑ k : Fin 128, val_main_v47 (F := Ideal) x0 x1 x6 x7 (ix2 r k) * x8 (ix2 k o) := by
  rw [val_main_v48_apply]
  refine Finset.sum_congr rfl fun k _ => ?_
  have el : lidx_main_v48 (ix2 r o) k = ix2 r k := funext fun a => match a with | ⟨0, _⟩ => rfl | ⟨1, _⟩ => rfl
  have er : ridx_main_v48 (ix2 r o) k = ix2 k o := funext fun a => match a with | ⟨0, _⟩ => rfl | ⟨1, _⟩ => rfl
  rw [el, er]

theorem dense0 (x0 x3 : FVec Ideal S50000x64 .f32) (x1 x4 : IVec S2x800000 32) (x6 : FVec Ideal S64x128 .f32) (x7 : FVec Ideal S128 .f32)
    (hx0 : ∀ i, ∃ t : ℝ, x0 i = (t : EReal)) (hx3 : ∀ i, ∃ t : ℝ, x3 i = (t : EReal)) (hw : ∀ i, ∃ t : ℝ, x6 i = (t : EReal))
    (r : Fin 100000) (j : Fin 128) :
    rg0 (concatenate S100000x64 0 [⟨S50000x64, agg64 x1 x0⟩, ⟨S50000x64, agg64 x4 x3⟩] concatenates_S50000x64_S50000x64_S100000x64_d0)
        x6 (shapeCast S1x128 x7 shapeCasts_S128_S1x128) (ix2 r j)
      = if h : r.val < 50000 then val_main_v47 (F := Ideal) x0 x1 x6 x7 (ix2 (⟨r.val, h⟩ : Fin 50000) j)
        else val_main_v47 (F := Ideal) x3 x4 x6 x7 (ix2 (⟨r.val - 50000, by have := r.isLt; omega⟩ : Fin 50000) j) := by
  show max ((∑ k : Fin 64, concatenate S100000x64 0 [⟨S50000x64, agg64 x1 x0⟩, ⟨S50000x64, agg64 x4 x3⟩]
      concatenates_S50000x64_S50000x64_S100000x64_d0 (ix2 r k) * x6 (ix2 k j))
    + shapeCast S1x128 x7 shapeCasts_S128_S1x128 (ix2 (0 : Fin 1) j)) 0 = _
  rw [bias_row]
  by_cases h : r.val < 50000
  · rw [dif_pos h, ref_hidden1 x0 x1 x6 x7 hx0 hw]
    simp only [stack_lo _ _ r h]
  · rw [dif_neg h, ref_hidden1 x3 x4 x6 x7 hx3 hw]
    simp only [stack_hi _ _ r h]

theorem dense01 (x0 x3 : FVec Ideal S50000x64 .f32) (x1 x4 : IVec S2x800000 32) (x6 : FVec Ideal S64x128 .f32) (x7 : FVec Ideal S128 .f32)
    (x8 : FVec Ideal S128x64 .f32)
    (hx0 : ∀ i, ∃ t : ℝ, x0 i = (t : EReal)) (hx3 : ∀ i, ∃ t : ℝ, x3 i = (t : EReal)) (hw : ∀ i, ∃ t : ℝ, x6 i = (t : EReal))
    (r : Fin 100000) (o : Fin 64) :
    rg1 (rg0 (concatenate S100000x64 0 [⟨S50000x64, agg64 x1 x0⟩, ⟨S50000x64, agg64 x4 x3⟩] concatenates_S50000x64_S50000x64_S100000x64_d0)
        x6 (shapeCast S1x128 x7 shapeCasts_S128_S1x128)) x8 (ix2 r o)
      = if h : r.val < 50000 then val_main_v48 (F := Ideal) x0 x1 x6 x7 x8 (ix2 (⟨r.val, h⟩ : Fin 50000) o)
        else val_main_v48 (F := Ideal) x3 x4 x6 x7 x8 (ix2 (⟨r.val - 50000, by have := r.isLt; omega⟩ : Fin 50000) o) := by
  show (∑ k : Fin 128, rg0 (concatenate S100000x64 0 [⟨S50000x64, agg64 x1 x0⟩, ⟨S50000x64, agg64 x4 x3⟩]
      concatenates_S50000x64_S50000x64_S100000x64_d0) x6 (shapeCast S1x128 x7 shapeCasts_S128_S1x128) (ix2 r k) * x8 (ix2 k o)) = _
  simp only [dense0 x0 x3 x1 x4 x6 x7 hx0 hx3 hw r]
  by_cases h : r.val < 50000
  · simp only [dif_pos h]; exact (ref_prod1 x0 x1 x6 x7 x8 _ o).symm
  · simp only [dif_neg h]; exact (ref_prod1 x3 x4 x6 x7 x8 _ o).symm

theorem kside_eq (x1 : IVec S2x800000 32) (x : FVec Ideal S50000x64 .f32) : kside x1 x = agg64 x1 x := rfl

end KFront

open KFront

theorem front_arg6 (m : (ℓ : Loc nD τ sig) → Buf (Elt Ideal) ℓ) (c : Dev nD) : V5 m c main_arg6 = m ((c : Thread nD τ).loc main_arg6) :=
  V5_arg6 m c

/-- After the two dense regions the stacked rows are, half by half, the reference's second product of each side. -/
theorem front (m : (ℓ : Loc nD τ sig) → Buf (Elt Ideal) ℓ) (c : Dev nD)
    (hx0 : ∀ i : S50000x64.Idx, ∃ t : ℝ, (m ((c : Thread nD τ).loc main_arg0) : S50000x64.Idx → EReal) i = (t : EReal))
    (hx3 : ∀ i : S50000x64.Idx, ∃ t : ℝ, (m ((c : Thread nD τ).loc main_arg3) : S50000x64.Idx → EReal) i = (t : EReal))
    (hw : ∀ i : S64x128.Idx, ∃ t : ℝ, (m ((c : Thread nD τ).loc main_arg6) : S64x128.Idx → EReal) i = (t : EReal))
    (r : Fin 100000) (o : Fin 64) :
    rg1 (rg0 (V5 m c main_v86) (V5 m c main_arg6) (V5 m c main_v87)) (m ((c : Thread nD τ).loc main_arg8)) (ix2 r o)
      = if h : r.val < 50000 then
          val_main_v48 (F := Ideal) (m ((c : Thread nD τ).loc main_arg0)) (m ((c : Thread nD τ).loc main_arg1))
            (m ((c : Thread nD τ).loc main_arg6)) (m ((c : Thread nD τ).loc main_arg7)) (m ((c : Thread nD τ).loc main_arg8))
            (ix2 (⟨r.val, h⟩ : Fin 50000) o)
        else
          val_main_v48 (F := Ideal) (m ((c : Thread nD τ).loc main_arg3)) (m ((c : Thread nD τ).loc main_arg4))
            (m ((c : Thread nD τ).loc main_arg6)) (m ((c : Thread nD τ).loc main_arg7)) (m ((c : Thread nD τ).loc main_arg8))
            (ix2 (⟨r.val - 50000, by have := r.isLt; omega⟩ : Fin 50000) o) := by
  have e86 := V5_v86 m c
  rw [kside_eq, kside_eq] at e86
  rw [e86, V5_arg6 m c, V5_v87 m c]
  exact dense01 _ _ _ _ _ _ _ hx0 hx3 hw r o

end Cert.Bridge

end
-- ==== Proof.KMiddle.lean ====
/- The host stretch between the second and third regions: each half of the product is aggregated over its own graph's edges, the bias added, the halves stacked again beside the stacked graph ids. -/
import proofs.«416730_j309237645609_2_alg».proof.Proof.Gen.KernelIdeal.Regions
import proofs.«416730_j309237645609_2_alg».proof.Proof.RefRead
import proofs.«416730_j309237645609_2_alg».proof.Proof.Closed
import proofs.«416730_j309237645609_2_alg».proof.Proof.AggLinear
import proofs.«416730_j309237645609_2_alg».proof.Proof.KFront
import proofs.«416730_j309237645609_2_alg».proof.Proof.Join
import Idealize.ShloMosaic.Lib.StableHlo.Run
import Idealize.ShloMosaic.Lib.Pipeline.Value
import Idealize.ShloMosaic.Lib.ValueIdx
import Idealize.ShloMosaic.PureOps.Ideal.Laws

set_option maxRecDepth 4096

noncomputable section

namespace Cert.Bridge

open Idealize.ShloMosaic Idealize.ShloMosaic.TcCoe Idealize.ShloMosaic.ValueIdx Idealize.SL.Sem
open Cert.KernelIdeal Cert.KernelIdeal.Gen
open Cert.ReferenceIdeal.ReadP (val_main_v48 val_main_v84 val_main_v86 val_main_v87)
open KFront Cert.Join

namespace KMiddle

def kbias (b : FVec Ideal S64 .f32) : FVec Ideal S50000x64 .f32 :=
  broadcastInDim S50000x64 ![0, 1] bcast_S1x64_S50000x64_0_1 (broadcastInDim S1x64 ![1] bcast_S64_S1x64_1 b)

def ktop (p : FVec Ideal S100000x64 .f32) : FVec Ideal S50000x64 .f32 :=
  extractStridedSlice S50000x64 ![0, 0] p slices_S100000x64_S50000x64_0_0

def kbot (p : FVec Ideal S100000x64 .f32) : FVec Ideal S50000x64 .f32 :=
  extractStridedSlice S50000x64 ![50000, 0] p slices_S100000x64_S50000x64_50000_0

section Stretch
variable (W : Valuation τ sig (Elt Ideal))

set_option maxHeartbeats 1000000 in

theorem st4_v59 : (StableHlo.after hostOps0_4 W (Proc.devRef .tc main_v59) : S850000.Idx → EReal)
    = edgeNorm (W (Proc.devRef .tc main_v44)) (W (Proc.devRef .tc main_v33)) (W (Proc.devRef .tc main_v36)) := by
  after_results
  rfl

theorem sm_v126 : (StableHlo.after hostOps2 W (Proc.devRef .tc main_v126) : S100000x64.Idx → EReal)
    = concatenate S100000x64 0
        [⟨S50000x64, addf (F := Ideal) (φ := .f32)
            (kagg (ktop (W (Proc.devRef .tc main_v91))) (W (Proc.devRef .tc main_v3)) (W (Proc.devRef .tc main_v6)) (W (Proc.devRef .tc main_v29)))
            (kbias (W (Proc.devRef .tc main_arg9)))⟩,
         ⟨S50000x64, addf (F := Ideal) (φ := .f32)
            (kagg (kbot (W (Proc.devRef .tc main_v91))) (W (Proc.devRef .tc main_v33)) (W (Proc.devRef .tc main_v36)) (W (Proc.devRef .tc main_v59)))
            (kbias (W (Proc.devRef .tc main_arg9)))⟩]
        concatenates_S50000x64_S50000x64_S100000x64_d0 := by
  after_results_join []
  rfl

set_option maxHeartbeats 1600000 in

theorem sm_v130 : (StableHlo.after hostOps2 W (Proc.devRef .tc main_v130) : S100000x1.Idx → BitVec 32)
    = shapeCast S100000x1 (concatenate S100000 0
        [⟨S50000, (W (Proc.devRef .tc main_arg2) : S50000.Idx → BitVec 32)⟩,
         ⟨S50000, addi (W (Proc.devRef .tc main_arg5) : S50000.Idx → BitVec 32) (broadcastInDim S50000 ![] bcast_S_S50000 (constantI S_ 32 512#32))⟩]
        concatenates_S50000_S50000_S100000_d0) shapeCasts_S100000_S100000x1 := by
  after_results
  rfl

end Stretch

section Core
variable (m : (ℓ : Loc nD τ sig) → Buf (Elt Ideal) ℓ) (outs : Outs (F := Ideal)) (c : Dev nD)

/-- A buffer that neither of the first two regions nor the stretches around them write is, before the third stretch, as the fifth stretch found it. -/
theorem V8_V4 (r : Ref sig .tc) (h5 : r ∉ hostOps0_4_W := by decide) (h6 : r ∉ ([main_v88] : List (Ref sig .tc)) := by decide)
    (h7 : r ∉ hostOps1_W := by decide) (h8 : r ∉ ([main_v91] : List (Ref sig .tc)) := by decide) : V8 m outs c r = V4 m c r :=
  (V8_of m outs c r h8).trans <| (V7_of m outs c r h7).trans <| (V6_of m outs c r h6).trans (V5_of m c r h5)
theorem V8_v91 : V8 m outs c main_v91 = outs 8 main_v91 c := Function.update_self _ _ _

theorem V8_v3 : (V8 m outs c main_v3 : S850000.Idx → BitVec 32) = kSrc (m ((c : Thread nD τ).loc main_arg1)) :=
  (V8_V4 m outs c main_v3).trans <| V4_v3 m c
theorem V8_v6 : (V8 m outs c main_v6 : S850000.Idx → BitVec 32) = kDst (m ((c : Thread nD τ).loc main_arg1)) :=
  (V8_V4 m outs c main_v6).trans <| V4_v6 m c
theorem V8_v29 : (V8 m outs c main_v29 : S850000.Idx → EReal)
    = edgeNorm (kFac (m ((c : Thread nD τ).loc main_arg1))) (kSrc (m ((c : Thread nD τ).loc main_arg1))) (kDst (m ((c : Thread nD τ).loc main_arg1))) :=
  (V8_V4 m outs c main_v29).trans <| V4_v29 m c
theorem V8_v33 : (V8 m outs c main_v33 : S850000.Idx → BitVec 32) = kSrc (m ((c : Thread nD τ).loc main_arg4)) :=
  (V8_V4 m outs c main_v33).trans <| V4_v33 m c
theorem V8_v36 : (V8 m outs c main_v36 : S850000.Idx → BitVec 32) = kDst (m ((c : Thread nD τ).loc main_arg4)) :=
  (V8_V4 m outs c main_v36).trans <| V4_v36 m c
theorem V8_v59 : (V8 m outs c main_v59 : S850000.Idx → EReal)
    = edgeNorm (kFac (m ((c : Thread nD τ).loc main_arg4))) (kSrc (m ((c : Thread nD τ).loc main_arg4))) (kDst (m ((c : Thread nD τ).loc main_arg4))) := by
  have h := st4_v59 (V4 m c)
  rw [V4_v44 m c, V4_v33 m c, V4_v36 m c] at h
  exact (V8_of m outs c main_v59 (by decide)).trans <| (V7_of m outs c main_v59 (by decide)).trans <| (V6_of m outs c main_v59 (by decide)).trans <| h
theorem V8_arg9 : V8 m outs c main_arg9 = (m ((c : Thread nD τ).loc main_arg9)) :=
  (V8_V4 m outs c main_arg9).trans <| V4_V0 m c main_arg9
theorem V8_arg2 : V8 m outs c main_arg2 = (m ((c : Thread nD τ).loc main_arg2)) :=
  (V8_V4 m outs c main_arg2).trans <| V4_V0 m c main_arg2
theorem V8_arg5 : V8 m outs c main_arg5 = (m ((c : Thread nD τ).loc main_arg5)) :=
  (V8_V4 m outs c main_arg5).trans <| V4_V0 m c main_arg5

end Core

theorem ktop_eq (P : FVec Ideal S100000x64 .f32) (A : FVec Ideal S50000x64 .f32)
    (h : ∀ (r : Fin 50000) (o : Fin 64), P (ix2 (⟨r.val, by have := r.isLt; omega⟩ : Fin 100000) o) = A (ix2 r o)) : ktop P = A := by
  funext i
  obtain ⟨r, o, rfl⟩ : ∃ (r : Fin 50000) (o : Fin 64), i = ix2 r o := ⟨i 0, i 1, eq_ix2 i⟩
  refine (extractStridedSlice_apply ![0, 0] P slices_S100000x64_S50000x64_0_0 (ix2 r o)
    (ix2 (⟨r.val, by have := r.isLt; omega⟩ : Fin 100000) o) ?_).trans (h r o)
  intro b
  match b with
  | ⟨0, _⟩ => show r.val = 0 + r.val; omega
  | ⟨1, _⟩ => show o.val = 0 + o.val; omega

theorem kbot_eq (P : FVec Ideal S100000x64 .f32) (A : FVec Ideal S50000x64 .f32)
    (h : ∀ (r : Fin 50000) (o : Fin 64), P (ix2 (⟨r.val + 50000, by have := r.isLt; omega⟩ : Fin 100000) o) = A (ix2 r o)) : kbot P = A := by
  funext i
  obtain ⟨r, o, rfl⟩ : ∃ (r : Fin 50000) (o : Fin 64), i = ix2 r o := ⟨i 0, i 1, eq_ix2 i⟩
  refine (extractStridedSlice_apply ![50000, 0] P slices_S100000x64_S50000x64_50000_0 (ix2 r o)
    (ix2 (⟨r.val + 50000, by have := r.isLt; omega⟩ : Fin 100000) o) ?_).trans (h r o)
  intro b
  match b with
  | ⟨0, _⟩ => show r.val + 50000 = 50000 + r.val; omega
  | ⟨1, _⟩ => show o.val = 0 + o.val; omega

theorem side1 (x0 : FVec Ideal S50000x64 .f32) (x1 : IVec S2x800000 32) (x6 : FVec Ideal S64x128 .f32) (x7 : FVec Ideal S128 .f32)
    (x8 : FVec Ideal S128x64 .f32) (x9 : FVec Ideal S64 .f32) :
    addf (F := Ideal) (φ := .f32) (kagg (val_main_v48 (F := Ideal) x0 x1 x6 x7 x8) (kSrc x1) (kDst x1) (edgeNorm (kFac x1) (kSrc x1) (kDst x1))) (kbias x9)
      = val_main_v87 (F := Ideal) x0 x1 x6 x7 x8 x9 := by
  have e1 : kagg (val_main_v48 (F := Ideal) x0 x1 x6 x7 x8) (kSrc x1) (kDst x1) (edgeNorm (kFac x1) (kSrc x1) (kDst x1))
      = val_main_v84 (F := Ideal) x0 x1 x6 x7 x8 := (kside_eq x1 _).trans (v84_eq x0 x1 x6 x7 x8).symm
  have e2 : kbias x9 = val_main_v86 (F := Ideal) x9 := rfl
  rw [e1, e2]
  rfl

theorem ids_lo (A1 A2 : IVec S50000 32) (r : Fin 100000) (h : r.val < 50000) :
    concatenate S100000 0 [⟨S50000, A1⟩, ⟨S50000, A2⟩] concatenates_S50000_S50000_S100000_d0 (ix1 r)
      = A1 (ix1 (⟨r.val, h⟩ : Fin 50000)) :=
  concatenate_pair_apply_left 0 A1 A2 concatenates_S50000_S50000_S100000_d0 (ix1 r) rfl
    (ix1 (⟨r.val, h⟩ : Fin 50000)) (fun b => match b with | ⟨0, _⟩ => rfl)
theorem ids_hi (A1 A2 : IVec S50000 32) (r : Fin 100000) (h : ¬ r.val < 50000) :
    concatenate S100000 0 [⟨S50000, A1⟩, ⟨S50000, A2⟩] concatenates_S50000_S50000_S100000_d0 (ix1 r)
      = A2 (ix1 (⟨r.val - 50000, by have := r.isLt; omega⟩ : Fin 50000)) :=
  concatenate_pair_apply_right 0 A1 A2 concatenates_S50000_S50000_S100000_d0 (ix1 r) rfl rfl
    (ix1 (⟨r.val - 50000, by have := r.isLt; omega⟩ : Fin 50000))
    (fun b hb => match b, hb with | ⟨0, _⟩, hb => absurd rfl hb)
    (by show r.val - 50000 + 50000 = r.val; omega)

theorem col_row (x : IVec S100000 32) (r : Fin 100000) :
    shapeCast S100000x1 x shapeCasts_S100000_S100000x1 (ix2 r (0 : Fin 1)) = x (ix1 r) :=
  shapeCast_apply x shapeCasts_S100000_S100000x1 (ix2 r (0 : Fin 1)) (ix1 r) (by
    rw [Shape.rowMajor_val_two, Shape.rowMajor_val_one]; show r.val = r.val * 1 + 0; omega)

end KMiddle

open KMiddle

theorem middle_feats (m : (ℓ : Loc nD τ sig) → Buf (Elt Ideal) ℓ) (outs : Outs (F := Ideal)) (c : Dev nD)
    (hP : ∀ (r : Fin 100000) (o : Fin 64), (outs 8 main_v91 c : S100000x64.Idx → EReal) (ix2 r o)
      = if h : r.val < 50000 then
          val_main_v48 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (ix2 (⟨r.val, h⟩ : Fin 50000) o)
        else
          val_main_v48 (F := Ideal) (m ((c : Thread nD τ).loc main_arg3)) (m ((c : Thread nD τ).loc main_arg4)) (m ((c : Thread nD τ).loc main_arg6)) (m ((c : Thread nD τ).loc main_arg7)) (m ((c : Thread nD τ).loc main_arg8))
            (ix2 (⟨r.val - 50000, by have := r.isLt; omega⟩ : Fin 50000) o))
    (r : Fin 100000) (o : Fin 64) :
    (V9 m outs c main_v126 : S100000x64.Idx → EReal) (ix2 r o)
      = if h : r.val < 50000 then
          val_main_v87 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (ix2 (⟨r.val, h⟩ : Fin 50000) o)
        else
          val_main_v87 (F := Ideal) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))
            (ix2 (⟨r.val - 50000, by have := r.isLt; omega⟩ : Fin 50000) o) := by
  have htop : ktop (outs 8 main_v91 c) = val_main_v48 (F := Ideal) (m ((c : Thread nD τ).loc main_arg0)) (m ((c : Thread nD τ).loc main_arg1)) (m ((c : Thread nD τ).loc main_arg6)) (m ((c : Thread nD τ).loc main_arg7)) (m ((c : Thread nD τ).loc main_arg8)) :=
    ktop_eq _ _ fun r' o' => by
      rw [hP ⟨r'.val, by have := r'.isLt; omega⟩ o', dif_pos (show r'.val < 50000 from r'.isLt)]
  have hbot : kbot (outs 8 main_v91 c) = val_main_v48 (F := Ideal) (m ((c : Thread nD τ).loc main_arg3)) (m ((c : Thread nD τ).loc main_arg4)) (m ((c : Thread nD τ).loc main_arg6)) (m ((c : Thread nD τ).loc main_arg7)) (m ((c : Thread nD τ).loc main_arg8)) :=
    kbot_eq _ _ fun r' o' => by
      rw [hP ⟨r'.val + 50000, by have := r'.isLt; omega⟩ o', dif_neg (show ¬ r'.val + 50000 < 50000 by omega)]
      exact congrArg _ (congrArg (fun t : Fin 50000 => ix2 t o') (Fin.ext (by show r'.val + 50000 - 50000 = r'.val; omega)))
  have h := sm_v126 (V8 m outs c)
  rw [V8_v91 m outs c, V8_v3 m outs c, V8_v6 m outs c, V8_v29 m outs c, V8_v33 m outs c, V8_v36 m outs c, V8_v59 m outs c,
    V8_arg9 m outs c, htop, hbot, side1, side1] at h
  rw [show (V9 m outs c main_v126 : S100000x64.Idx → EReal) = _ from h]
  by_cases hr : r.val < 50000
  · rw [dif_pos hr]; exact stack_lo _ _ r hr o
  · rw [dif_neg hr]; exact stack_hi _ _ r hr o

theorem middle_ids (m : (ℓ : Loc nD τ sig) → Buf (Elt Ideal) ℓ) (outs : Outs (F := Ideal)) (c : Dev nD) (r : Fin 100000) :
    (V9 m outs c main_v130 : S100000x1.Idx → BitVec 32) (ix2 r (0 : Fin 1))
      = if h : r.val < 50000 then ((m ((c : Thread nD τ).loc main_arg2)) : S50000.Idx → BitVec 32) (ix1 (⟨r.val, h⟩ : Fin 50000))
        else @HAdd.hAdd (BitVec 32) (BitVec 32) (BitVec 32) instHAdd
          (((m ((c : Thread nD τ).loc main_arg5)) : S50000.Idx → BitVec 32) (ix1 (⟨r.val - 50000, by have := r.isLt; omega⟩ : Fin 50000))) 512#32 := by
  have h := sm_v130 (V8 m outs c)
  rw [V8_arg2 m outs c, V8_arg5 m outs c] at h
  rw [show (V9 m outs c main_v130 : S100000x1.Idx → BitVec 32) = _ from h, col_row]
  by_cases hr : r.val < 50000
  · rw [dif_pos hr]; exact ids_lo _ _ r hr
  · rw [dif_neg hr]; exact (ids_hi _ _ r hr).trans rfl

end Cert.Bridge

end
-- ==== Proof.KTail.lean ====
/- The last host stretch: per-graph counts, the quotient by the clipped counts, the halves side by side, the dense read-out and the logistic, against the reference's last lines. -/
import proofs.«416730_j309237645609_2_alg».proof.Proof.Gen.KernelIdeal.Regions
import proofs.«416730_j309237645609_2_alg».proof.Proof.RefRead
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Idealize.ShloMosaic.TcCoe Cert.KernelIdeal Cert.KernelIdeal.Gen
open Cert.ReferenceIdeal.ReadP (val_main_v90 val_main_v94 val_main_v95 val_main_v96 val_main_v97 val_main_v98 val_main_v99 val_main_v200
  val_main_v210 val_main_v99_apply val_main_v98_apply val_main_v97_apply val_main_v96_apply val_main_v95_apply
  val_main_cst_23_apply idx_main_v97 idx_main_v98)

namespace KTail

def lastLines (y : FVec Ideal S512x128 .f32) (w : FVec Ideal S128x1 .f32) (b : FVec Ideal S1 .f32) : FVec Ideal S512x1 .f32 :=
  Host.divf (broadcastInDim S512x1 ![] bcast_S_S512x1 (constant (F := Ideal) S_ .f32 0x3F800000#32))
    (addf (broadcastInDim S512x1 ![] bcast_S_S512x1 (constant (F := Ideal) S_ .f32 0x3F800000#32))
      (Host.exp (Host.negf (addf (Host.dotGeneral dot_S512x128_S128x1_S512x1_1_0_0_1_n_n none y w)
        (broadcastInDim S512x1 ![0, 1] bcast_S1x1_S512x1_0_1 (broadcastInDim S1x1 ![1] bcast_S1_S1x1_1 b))))))

def cnt (bt : IVec S50000 32) : FVec Ideal S512 .f32 :=
  Host.scatterAdd scatter_S512_S50000x1_S50000_n_0_0_1
    (broadcastInDim S512 ![] bcast_S_S512 (constant (F := Ideal) S_ .f32 0x00000000#32))
    (broadcastInDim S50000x1 ![0] bcast_S50000_S50000x1_0 bt)
    (broadcastInDim S50000 ![] bcast_S_S50000 (constant (F := Ideal) S_ .f32 0x3F800000#32))

def den (c1 c2 : FVec Ideal S512 .f32) : FVec Ideal S1024x64 .f32 :=
  broadcastInDim S1024x64 ![0, 1] bcast_S1024x1_S1024x64_0_1
    (broadcastInDim S1024x1 ![0] bcast_S1024_S1024x1_0
      (maximumf (concatenate S1024 0 [⟨S512, c1⟩, ⟨S512, c2⟩] concatenates_S512_S512_S1024_d0)
        (broadcastInDim S1024 ![] bcast_S_S1024 (constant (F := Ideal) S_ .f32 0x3F800000#32))))

theorem read_last (V : Valuation τ sig (Elt Ideal)) :
    (StableHlo.after hostOps3 V (Proc.devRef .tc main_v158) : S512x1.Idx → EReal) =
      lastLines (concatenate S512x128 1
        [⟨S512x64, extractStridedSlice S512x64 ![0, 0] (Host.divf (V (Proc.devRef .tc main_v131) : FVec Ideal S1024x64 .f32)
            (den (cnt (V (Proc.devRef .tc main_arg2))) (cnt (V (Proc.devRef .tc main_arg5))))) slices_S1024x64_S512x64_0_0⟩,
         ⟨S512x64, extractStridedSlice S512x64 ![512, 0] (Host.divf (V (Proc.devRef .tc main_v131) : FVec Ideal S1024x64 .f32)
            (den (cnt (V (Proc.devRef .tc main_arg2))) (cnt (V (Proc.devRef .tc main_arg5))))) slices_S1024x64_S512x64_512_0⟩]
        concatenates_S512x64_S512x64_S512x128_d1)
        (V (Proc.devRef .tc main_arg10)) (V (Proc.devRef .tc main_arg11)) := by
  after_results_simp
  rfl

theorem den_lo (c1 c2 : FVec Ideal S512 .f32) (g : Fin 512) (o : Fin 64) (hp : g.val < 1024) :
    den c1 c2 (ix2 (⟨g.val, hp⟩ : Fin 1024) o) = max (c1 (ix1 g)) (Ideal.ofBits .f32 0x3F800000#32) := by
  unfold den
  refine (broadcastInDim_apply _ bcast_S1024x1_S1024x64_0_1 _ _ (ix2 (⟨g.val, hp⟩ : Fin 1024) (0 : Fin 1)) (fun a => match a with
    | ⟨0, _⟩ => by show g.val = if (1024 : Nat) = 1 then 0 else g.val; rw [if_neg (by decide)]
    | ⟨1, _⟩ => by show 0 = if (1 : Nat) = 1 then 0 else o.val; rw [if_pos rfl])).trans ?_
  refine (broadcastInDim_apply _ bcast_S1024_S1024x1_0 _ _ (ix1 (⟨g.val, hp⟩ : Fin 1024)) (fun a => match a with
    | ⟨0, _⟩ => by show g.val = if (1024 : Nat) = 1 then 0 else g.val; rw [if_neg (by decide)])).trans ?_
  rw [maximumf_apply]
  congr 1
  exact concatenate_pair_apply_left (0 : Fin S1024.rank) c1 c2 concatenates_S512_S512_S1024_d0 _ rfl (ix1 g)
    (fun b => match b with | ⟨0, _⟩ => rfl)

theorem den_hi (c1 c2 : FVec Ideal S512 .f32) (g : Fin 512) (o : Fin 64) (hp : 512 + g.val < 1024) :
    den c1 c2 (ix2 (⟨512 + g.val, hp⟩ : Fin 1024) o) = max (c2 (ix1 g)) (Ideal.ofBits .f32 0x3F800000#32) := by
  unfold den
  refine (broadcastInDim_apply _ bcast_S1024x1_S1024x64_0_1 _ _ (ix2 (⟨512 + g.val, hp⟩ : Fin 1024) (0 : Fin 1)) (fun a => match a with
    | ⟨0, _⟩ => by show 512 + g.val = if (1024 : Nat) = 1 then 0 else 512 + g.val; rw [if_neg (by decide)]
    | ⟨1, _⟩ => by show 0 = if (1 : Nat) = 1 then 0 else o.val; rw [if_pos rfl])).trans ?_
  refine (broadcastInDim_apply _ bcast_S1024_S1024x1_0 _ _ (ix1 (⟨512 + g.val, hp⟩ : Fin 1024)) (fun a => match a with
    | ⟨0, _⟩ => by show 512 + g.val = if (1024 : Nat) = 1 then 0 else 512 + g.val; rw [if_neg (by decide)])).trans ?_
  rw [maximumf_apply]
  congr 1
  exact concatenate_pair_apply_right (0 : Fin S1024.rank) c1 c2 concatenates_S512_S512_S1024_d0 _ rfl rfl (ix1 g)
    (fun b hb => match b with | ⟨0, _⟩ => absurd rfl hb) (by show g.val + 512 = 512 + g.val; omega)

theorem slice_lo (S : FVec Ideal S1024x64 .f32) (c1 c2 : FVec Ideal S512 .f32) (g : Fin 512) (o : Fin 64) :
    extractStridedSlice S512x64 ![0, 0] (Host.divf S (den c1 c2)) slices_S1024x64_S512x64_0_0 (ix2 g o)
      = FloatOps.hostDivf (S (ix2 (⟨g.val, by omega⟩ : Fin 1024) o)) (max (c1 (ix1 g)) (Ideal.ofBits .f32 0x3F800000#32)) := by
  refine (extractStridedSlice_apply _ _ slices_S1024x64_S512x64_0_0 (ix2 g o) (ix2 (⟨g.val, by omega⟩ : Fin 1024) o) (fun a => match a with
    | ⟨0, _⟩ => by show g.val = 0 + g.val; omega
    | ⟨1, _⟩ => by show o.val = 0 + o.val; omega)).trans ?_
  show FloatOps.hostDivf _ _ = _
  rw [den_lo]

theorem slice_hi (S : FVec Ideal S1024x64 .f32) (c1 c2 : FVec Ideal S512 .f32) (g : Fin 512) (o : Fin 64) :
    extractStridedSlice S512x64 ![512, 0] (Host.divf S (den c1 c2)) slices_S1024x64_S512x64_512_0 (ix2 g o)
      = FloatOps.hostDivf (S (ix2 (⟨512 + g.val, by omega⟩ : Fin 1024) o)) (max (c2 (ix1 g)) (Ideal.ofBits .f32 0x3F800000#32)) := by
  refine (extractStridedSlice_apply _ _ slices_S1024x64_S512x64_512_0 (ix2 g o) (ix2 (⟨512 + g.val, by omega⟩ : Fin 1024) o) (fun a => match a with
    | ⟨0, _⟩ => by show 512 + g.val = 512 + g.val; rfl
    | ⟨1, _⟩ => by show o.val = 0 + o.val; omega)).trans ?_
  show FloatOps.hostDivf _ _ = _
  rw [den_hi]

theorem cnt_eq1 (x2 : IVec S50000 32) : val_main_v94 (F := Ideal) x2 = cnt x2 := rfl

theorem ref_lo (x0 : FVec Ideal S50000x64 .f32) (x1 : IVec S2x800000 32) (x2 : IVec S50000 32) (x6 : FVec Ideal S64x128 .f32)
    (x7 : FVec Ideal S128 .f32) (x8 : FVec Ideal S128x64 .f32) (x9 : FVec Ideal S64 .f32) (g : Fin 512) (o : Fin 64) :
    val_main_v99 (F := Ideal) x0 x1 x2 x6 x7 x8 x9 (ix2 g o) =
      FloatOps.hostDivf (val_main_v90 (F := Ideal) x0 x1 x2 x6 x7 x8 x9 (ix2 g o))
        (max (cnt x2 (ix1 g)) (Ideal.ofBits .f32 0x3F800000#32)) := by
  rw [val_main_v99_apply, val_main_v98_apply, val_main_v97_apply, val_main_v96_apply, val_main_v95_apply, val_main_cst_23_apply]
  have e : idx_main_v97 (idx_main_v98 (ix2 g o)) = ix1 g := funext fun a => match a with | ⟨0, _⟩ => rfl
  rw [e, cnt_eq1]
  rfl

theorem ref_last (x0 : FVec Ideal S50000x64 .f32) (x1 : IVec S2x800000 32) (x2 : IVec S50000 32)
    (x3 : FVec Ideal S50000x64 .f32) (x4 : IVec S2x800000 32) (x5 : IVec S50000 32) (x6 : FVec Ideal S64x128 .f32)
    (x7 : FVec Ideal S128 .f32) (x8 : FVec Ideal S128x64 .f32) (x9 : FVec Ideal S64 .f32) (x10 : FVec Ideal S128x1 .f32) (x11 : FVec Ideal S1 .f32) :
    val_main_v210 (F := Ideal) x0 x1 x2 x3 x4 x5 x6 x7 x8 x9 x10 x11 =
      lastLines (concatenate S512x128 1
        [⟨S512x64, val_main_v99 (F := Ideal) x0 x1 x2 x6 x7 x8 x9⟩, ⟨S512x64, val_main_v99 (F := Ideal) x3 x4 x5 x6 x7 x8 x9⟩]
        concatenates_S512x64_S512x64_S512x128_d1) x10 x11 := rfl

end KTail

open KTail

variable (m : (ℓ : Loc nD τ sig) → Buf (Elt Ideal) ℓ) (outs : Outs (F := Ideal)) (c : Dev nD)

theorem tail
    (hS : ∀ (p : Fin 1024) (o : Fin 64), (outs 10 main_v131 c : S1024x64.Idx → EReal) (ix2 p o) =
      if h : p.val < 512 then
        val_main_v90 (F := Ideal) (m ((c : Thread nD τ).loc main_arg0)) (m ((c : Thread nD τ).loc main_arg1)) (m ((c : Thread nD τ).loc main_arg2))
          (m ((c : Thread nD τ).loc main_arg6)) (m ((c : Thread nD τ).loc main_arg7)) (m ((c : Thread nD τ).loc main_arg8)) (m ((c : Thread nD τ).loc main_arg9))
          (ix2 (⟨p.val, h⟩ : Fin 512) o)
      else
        val_main_v90 (F := Ideal) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9))
          (ix2 (⟨p.val - 512, by have := p.isLt; omega⟩ : Fin 512) o)) :
    (V11 m outs c main_v158 : S512x1.Idx → EReal) =
      val_main_v210 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) := by
  have e131 : V10 m outs c (Proc.devRef .tc main_v131) = outs 10 main_v131 c := Function.update_self _ _ _
  have e2 : V10 m outs c (Proc.devRef .tc main_arg2) = m ((c : Thread nD τ).loc main_arg2) :=
    (V11_of m outs c main_arg2 (by decide)).symm.trans (V11_main_arg2 m outs c)
  have e5 : V10 m outs c (Proc.devRef .tc main_arg5) = m ((c : Thread nD τ).loc main_arg5) :=
    (V11_of m outs c main_arg5 (by decide)).symm.trans (V11_main_arg5 m outs c)
  have e10 : V10 m outs c (Proc.devRef .tc main_arg10) = m ((c : Thread nD τ).loc main_arg10) :=
    (V11_of m outs c main_arg10 (by decide)).symm.trans (V11_main_arg10 m outs c)
  have e11 : V10 m outs c (Proc.devRef .tc main_arg11) = m ((c : Thread nD τ).loc main_arg11) :=
    (V11_of m outs c main_arg11 (by decide)).symm.trans (V11_main_arg11 m outs c)
  refine (read_last (V10 m outs c)).trans ?_
  rw [e131, e2, e5, e10, e11, ref_last]

  have hlo : extractStridedSlice S512x64 ![0, 0] (Host.divf (outs 10 main_v131 c : FVec Ideal S1024x64 .f32)
      (den (cnt (m ((c : Thread nD τ).loc main_arg2))) (cnt (m ((c : Thread nD τ).loc main_arg5))))) slices_S1024x64_S512x64_0_0 =
      val_main_v99 (F := Ideal) (m ((c : Thread nD τ).loc main_arg0)) (m ((c : Thread nD τ).loc main_arg1)) (m ((c : Thread nD τ).loc main_arg2))
        (m ((c : Thread nD τ).loc main_arg6)) (m ((c : Thread nD τ).loc main_arg7)) (m ((c : Thread nD τ).loc main_arg8)) (m ((c : Thread nD τ).loc main_arg9)) := by
    funext i
    obtain ⟨g, o, rfl⟩ : ∃ (g : Fin 512) (o : Fin 64), i = ix2 g o := ⟨i 0, i 1, eq_ix2 i⟩
    rw [slice_lo, ref_lo, hS, dif_pos g.isLt]
  have hhi : extractStridedSlice S512x64 ![512, 0] (Host.divf (outs 10 main_v131 c : FVec Ideal S1024x64 .f32)
      (den (cnt (m ((c : Thread nD τ).loc main_arg2))) (cnt (m ((c : Thread nD τ).loc main_arg5))))) slices_S1024x64_S512x64_512_0 =
      val_main_v99 (F := Ideal) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) := by
    funext i
    obtain ⟨g, o, rfl⟩ : ∃ (g : Fin 512) (o : Fin 64), i = ix2 g o := ⟨i 0, i 1, eq_ix2 i⟩
    have eg : ∀ h, (⟨512 + g.val - 512, h⟩ : Fin 512) = g := fun h => Fin.ext (by show 512 + g.val - 512 = g.val; omega)
    rw [slice_hi, ref_lo, hS, dif_neg (by show ¬ 512 + g.val < 512; omega), eg]
  rw [hlo, hhi]

end Cert.Bridge

end
-- ==== Proof.Pool.lean ====
/- Summing the stacked rows by stacked graph id: ids below 512 meet only side 1's rows, the others only side 2's, so each half is that side's segment sum. -/
import proofs.«416730_j309237645609_2_alg».proof.Proof.RefRead
import proofs.«416730_j309237645609_2_alg».proof.Proof.Closed
import proofs.«416730_j309237645609_2_alg».proof.Proof.AggLinear
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx

namespace PoolAux

abbrev SD := Cert.ReferenceIdeal.scatter_S512x64_S50000x1_S50000x64_1_0_0_1

theorem rec_seg : SD = rowScatter 512 50000 64 Cert.ReferenceIdeal.Gen.scatter_S512x64_S50000x1_S50000x64_1_0_0_1_wf := rfl

theorem segsum_apply (x : FVec Ideal Cert.ReferenceIdeal.S512x64 .f32) (idx : IVec Cert.ReferenceIdeal.S50000x1 32)
    (upd : FVec Ideal Cert.ReferenceIdeal.S50000x64 .f32) (g : Fin 512) (o : Fin 64) :
    Host.scatterAdd SD x idx upd (ix2 g o)
      = x (ix2 g o) + ∑ r : Fin 50000, if (idx (ix2 r (0 : Fin 1))).toInt = (g.val : Int) then upd (ix2 r o) else 0 := by
  unfold Host.scatterAdd
  rw [Ideal.hostScatterAdd_def, rec_seg]
  exact (rowScatterAdd_apply _ x idx upd g o).trans (congrArg _ (Finset.sum_filter _ _))

theorem word_small (w : BitVec 32) (h0 : 0 ≤ w.toInt) (h1 : w.toInt < 512) :
    (w.toNat : Int) = w.toInt ∧ w.toNat < 512 := by
  have h := BitVec.toInt_eq_toNat_cond w
  have hl := w.isLt
  split at h <;> omega

theorem word_lo (w : BitVec 32) (h0 : 0 ≤ w.toInt) (h1 : w.toInt < 512) (p : Fin 1024) :
    w = BitVec.ofNat 32 p.val ↔ w.toInt = (p.val : Int) := by
  obtain ⟨e, hl⟩ := word_small w h0 h1
  have hp : p.val < 1024 := p.isLt
  constructor
  · intro h
    have h2 := congrArg BitVec.toNat h
    rw [BitVec.toNat_ofNat] at h2
    omega
  · intro h
    apply BitVec.eq_of_toNat_eq
    rw [BitVec.toNat_ofNat]
    omega

theorem word_hi (w : BitVec 32) (h0 : 0 ≤ w.toInt) (h1 : w.toInt < 512) (p : Fin 1024) :
    w + 512#32 = BitVec.ofNat 32 p.val ↔ w.toInt + 512 = (p.val : Int) := by
  obtain ⟨e, hl⟩ := word_small w h0 h1
  have hp : p.val < 1024 := p.isLt
  constructor
  · intro h
    have h2 := congrArg BitVec.toNat h
    rw [BitVec.toNat_add, BitVec.toNat_ofNat, BitVec.toNat_ofNat] at h2
    omega
  · intro h
    apply BitVec.eq_of_toNat_eq
    rw [BitVec.toNat_add, BitVec.toNat_ofNat, BitVec.toNat_ofNat]
    omega

theorem sum_halves {M : Type*} [AddCommMonoid M] (f : Fin 100000 → M) :
    ∑ r, f r = (∑ r : Fin 50000, f ⟨r.val, by have := r.isLt; omega⟩)
      + ∑ r : Fin 50000, f ⟨50000 + r.val, by have := r.isLt; omega⟩ :=
  Fin.sum_univ_add (a := 50000) (b := 50000) (f : Fin (50000 + 50000) → M)

section
open Cert.ReferenceIdeal Cert.ReferenceIdeal.Facts₀

def segsum (b : IVec S50000 32) (f : FVec Ideal S50000x64 .f32) : FVec Ideal S512x64 .f32 :=
  Host.scatterAdd SD (broadcastInDim S512x64 ![] bcast_S_S512x64 (constant (F := Ideal) S_ .f32 0x00000000#32))
    (broadcastInDim S50000x1 ![0] bcast_S50000_S50000x1_0 b) f

theorem segsum_at (b : IVec S50000 32) (f : FVec Ideal S50000x64 .f32) (g : Fin 512) (o : Fin 64) :
    segsum b f (ix2 g o) = ∑ r : Fin 50000, if (b (ix1 r)).toInt = (g.val : Int) then f (ix2 r o) else 0 := by
  unfold segsum
  rw [segsum_apply]
  have hz : broadcastInDim S512x64 ![] bcast_S_S512x64 (constant (F := Ideal) S_ .f32 0x00000000#32) (ix2 g o) = 0 := by
    rw [broadcastInDim_apply _ bcast_S_S512x64 _ (ix2 g o) (fun a => a.elim0) (fun a => a.elim0)]
    exact Ideal.ofBits_zero_f32
  rw [hz, zero_add]
  refine Finset.sum_congr rfl fun r _ => ?_
  have hb : broadcastInDim S50000x1 ![0] bcast_S50000_S50000x1_0 b (ix2 r (0 : Fin 1)) = b (ix1 r) :=
    broadcastInDim_apply _ bcast_S50000_S50000x1_0 b (ix2 r (0 : Fin 1)) (ix1 r) (fun a => match a with
      | ⟨0, _⟩ => by show r.val = if (50000 : Nat) = 1 then 0 else r.val; rw [if_neg (by decide)])
  rw [hb]

end

theorem pool_core (b1 b2 : IVec Cert.ReferenceIdeal.S50000 32) (f1 f2 : FVec Ideal Cert.ReferenceIdeal.S50000x64 .f32)
    (feats : FVec Ideal Cert.KernelIdeal.S100000x64 .f32) (ids : IVec Cert.KernelIdeal.S100000x1 32)
    (hb1 : ∀ i, 0 ≤ (b1 i).toInt ∧ (b1 i).toInt < 512) (hb2 : ∀ i, 0 ≤ (b2 i).toInt ∧ (b2 i).toInt < 512)
    (hF : ∀ (r : Fin 100000) (o : Fin 64), feats (ix2 r o) = if h : r.val < 50000 then f1 (ix2 (⟨r.val, h⟩ : Fin 50000) o)
      else f2 (ix2 (⟨r.val - 50000, by have := r.isLt; omega⟩ : Fin 50000) o))
    (hI : ∀ r : Fin 100000, ids (ix2 r (0 : Fin 1)) = if h : r.val < 50000 then b1 (ix1 (⟨r.val, h⟩ : Fin 50000))
      else b2 (ix1 (⟨r.val - 50000, by have := r.isLt; omega⟩ : Fin 50000)) + 512#32)
    (p : Fin 1024) (o : Fin 64) :
    rg2 feats ids (ix2 p o) = if h : p.val < 512 then segsum b1 f1 (ix2 (⟨p.val, h⟩ : Fin 512) o)
      else segsum b2 f2 (ix2 (⟨p.val - 512, by have := p.isLt; omega⟩ : Fin 512) o) := by
  have hp : p.val < 1024 := p.isLt

  have hF1 : ∀ r : Fin 50000, feats (ix2 (⟨r.val, by have := r.isLt; omega⟩ : Fin 100000) o) = f1 (ix2 r o) := by
    intro r
    rw [hF, dif_pos (show r.val < 50000 from r.isLt)]
  have hF2 : ∀ r : Fin 50000, feats (ix2 (⟨50000 + r.val, by have := r.isLt; omega⟩ : Fin 100000) o) = f2 (ix2 r o) := by
    intro r
    rw [hF, dif_neg (show ¬ (50000 + r.val < 50000) by omega)]
    refine congrArg (fun q : Fin 50000 => f2 (ix2 q o)) (Fin.ext ?_)
    show 50000 + r.val - 50000 = r.val
    omega
  have hI1 : ∀ r : Fin 50000, ids (ix2 (⟨r.val, by have := r.isLt; omega⟩ : Fin 100000) (0 : Fin 1)) = b1 (ix1 r) := by
    intro r
    rw [hI, dif_pos (show r.val < 50000 from r.isLt)]
  have hI2 : ∀ r : Fin 50000, ids (ix2 (⟨50000 + r.val, by have := r.isLt; omega⟩ : Fin 100000) (0 : Fin 1)) = b2 (ix1 r) + 512#32 := by
    intro r
    rw [hI, dif_neg (show ¬ (50000 + r.val < 50000) by omega)]
    refine congrArg (fun q : Fin 50000 => b2 (ix1 q) + 512#32) (Fin.ext ?_)
    show 50000 + r.val - 50000 = r.val
    omega
  have hsplit : rg2 feats ids (ix2 p o)
      = (∑ r : Fin 50000, oh (b1 (ix1 r)) p * f1 (ix2 r o)) + ∑ r : Fin 50000, oh (b2 (ix1 r) + 512#32) p * f2 (ix2 r o) := by
    show (∑ r : Fin 100000, oh (ids (ix2 r (0 : Fin 1))) p * feats (ix2 r o)) = _
    rw [sum_halves]
    simp only [hF1, hF2, hI1, hI2]
  rw [hsplit]
  by_cases h : p.val < 512
  · rw [dif_pos h, segsum_at]
    have hz : (∑ r : Fin 50000, oh (b2 (ix1 r) + 512#32) p * f2 (ix2 r o)) = 0 := by
      refine Finset.sum_eq_zero fun r _ => ?_
      unfold oh
      rw [if_neg, zero_mul]
      rw [word_hi _ (hb2 _).1 (hb2 _).2]
      have := (hb2 (ix1 r)).1
      omega
    rw [hz, add_zero]
    refine Finset.sum_congr rfl fun r _ => ?_
    unfold oh
    by_cases e : (b1 (ix1 r)).toInt = (p.val : Int)
    · rw [if_pos ((word_lo _ (hb1 _).1 (hb1 _).2 p).2 e), if_pos e, one_mul]
    · rw [if_neg (fun q => e ((word_lo _ (hb1 _).1 (hb1 _).2 p).1 q)), if_neg e, zero_mul]
  · rw [dif_neg h, segsum_at]
    have hz : (∑ r : Fin 50000, oh (b1 (ix1 r)) p * f1 (ix2 r o)) = 0 := by
      refine Finset.sum_eq_zero fun r _ => ?_
      unfold oh
      rw [if_neg, zero_mul]
      rw [word_lo _ (hb1 _).1 (hb1 _).2]
      have := (hb1 (ix1 r)).2
      omega
    rw [hz, zero_add]
    refine Finset.sum_congr rfl fun r _ => ?_
    unfold oh
    by_cases e : (b2 (ix1 r)).toInt = ((p.val - 512 : Nat) : Int)
    · rw [if_pos ((word_hi _ (hb2 _).1 (hb2 _).2 p).2 (by omega)), if_pos e, one_mul]
    · rw [if_neg (fun q => e (by have := (word_hi _ (hb2 _).1 (hb2 _).2 p).1 q; omega)), if_neg e, zero_mul]

end PoolAux

open PoolAux in

/-- The one-hot sum over all stacked rows is, on each half of the segments, the per-side scatter-add of the feature rows. -/
theorem pool
    (x0 : (⟨Cert.ReferenceIdeal.S50000x64, .f32⟩ : BufTy).Contents (Elt Ideal))
    (x1 : (⟨Cert.ReferenceIdeal.S2x800000, .i32⟩ : BufTy).Contents (Elt Ideal))
    (x2 : (⟨Cert.ReferenceIdeal.S50000, .i32⟩ : BufTy).Contents (Elt Ideal))
    (x3 : (⟨Cert.ReferenceIdeal.S50000x64, .f32⟩ : BufTy).Contents (Elt Ideal))
    (x4 : (⟨Cert.ReferenceIdeal.S2x800000, .i32⟩ : BufTy).Contents (Elt Ideal))
    (x5 : (⟨Cert.ReferenceIdeal.S50000, .i32⟩ : BufTy).Contents (Elt Ideal))
    (x6 : (⟨Cert.ReferenceIdeal.S64x128, .f32⟩ : BufTy).Contents (Elt Ideal))
    (x7 : (⟨Cert.ReferenceIdeal.S128, .f32⟩ : BufTy).Contents (Elt Ideal))
    (x8 : (⟨Cert.ReferenceIdeal.S128x64, .f32⟩ : BufTy).Contents (Elt Ideal))
    (x9 : (⟨Cert.ReferenceIdeal.S64, .f32⟩ : BufTy).Contents (Elt Ideal))
    (feats : FVec Ideal Cert.KernelIdeal.S100000x64 .f32) (ids : IVec Cert.KernelIdeal.S100000x1 32)
    (hb1 : ∀ i, 0 ≤ (x2 i).toInt ∧ (x2 i).toInt < 512) (hb2 : ∀ i, 0 ≤ (x5 i).toInt ∧ (x5 i).toInt < 512)
    (hF : ∀ (r : Fin 100000) (o : Fin 64), feats (ix2 r o) = if h : r.val < 50000
      then Cert.ReferenceIdeal.ReadP.val_main_v87 (F := Ideal) x0 x1 x6 x7 x8 x9 (ix2 (⟨r.val, h⟩ : Fin 50000) o)
      else Cert.ReferenceIdeal.ReadP.val_main_v87 (F := Ideal) x3 x4 x6 x7 x8 x9 (ix2 (⟨r.val - 50000, by have := r.isLt; omega⟩ : Fin 50000) o))
    (hI : ∀ r : Fin 100000, ids (ix2 r (0 : Fin 1)) = if h : r.val < 50000 then x2 (ix1 (⟨r.val, h⟩ : Fin 50000))
      else x5 (ix1 (⟨r.val - 50000, by have := r.isLt; omega⟩ : Fin 50000)) + 512#32)
    (p : Fin 1024) (o : Fin 64) :
    rg2 feats ids (ix2 p o) = if h : p.val < 512
      then Cert.ReferenceIdeal.ReadP.val_main_v90 (F := Ideal) x0 x1 x2 x6 x7 x8 x9 (ix2 (⟨p.val, h⟩ : Fin 512) o)
      else Cert.ReferenceIdeal.ReadP.val_main_v90 (F := Ideal) x3 x4 x5 x6 x7 x8 x9 (ix2 (⟨p.val - 512, by have := p.isLt; omega⟩ : Fin 512) o) := by
  have e1 : Cert.ReferenceIdeal.ReadP.val_main_v90 (F := Ideal) x0 x1 x2 x6 x7 x8 x9
      = segsum x2 (Cert.ReferenceIdeal.ReadP.val_main_v87 (F := Ideal) x0 x1 x6 x7 x8 x9) := rfl
  have e2 : Cert.ReferenceIdeal.ReadP.val_main_v90 (F := Ideal) x3 x4 x5 x6 x7 x8 x9
      = segsum x5 (Cert.ReferenceIdeal.ReadP.val_main_v87 (F := Ideal) x3 x4 x6 x7 x8 x9) := rfl
  rw [e1, e2]
  exact pool_core x2 x5 _ _ feats ids hb1 hb2 hF hI p o

end Cert.Bridge

end
-- ==== Proof.PreFacts.lean ====
/- What the precondition says: every entry of the float inputs is a real, and every graph id, read signed, lies in [0, 512). -/
import proofs.«416730_j309237645609_2_alg».proof.Defs
import proofs.«416730_j309237645609_2_alg».proof.Proof.Gen.Pre_finite_inputs
import Idealize.ShloMosaic.Lib.ReduceAll
import Idealize.ShloMosaic.Lib.StableHlo.Predicate
import Idealize.ShloMosaic.Lib.ValueIdx

noncomputable section

namespace Cert.Bridge

open Idealize.ShloMosaic Idealize.SL.Sem

instance subsingleton_scalar_idx : Subsingleton Cert.Pre_finite_inputs.S_.Idx :=
  ⟨fun a b => funext fun d => d.elim0⟩

theorem inf_word : Ideal.ofBits .f32 0x7F800000#32 = (⊤ : EReal) := by simp [Ideal.ofBits, Ideal.ieee]

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ t : ℝ, x = (t : EReal) := by
  change Ideal.cmp .olt (max x (-x)) (Ideal.ofBits .f32 0x7F800000#32) = 1#1 at h
  rw [inf_word] at h
  induction x using EReal.rec with
  | bot => simp [Ideal.cmp] at h
  | coe r => exact ⟨r, rfl⟩
  | top => simp [Ideal.cmp] at h

theorem range_of_cmp (w : BitVec 32) (h0 : IntOp.cmpi .sge w 0#32 = 1#1) (h1 : IntOp.cmpi .slt w 512#32 = 1#1) :
    0 ≤ w.toInt ∧ w.toInt < 512 := by
  rw [IntOp.cmpi_sge] at h0
  rw [IntOp.cmpi_slt] at h1
  have e0 : (0#32 : BitVec 32).toInt = 0 := by decide
  have e1 : (512#32 : BitVec 32).toInt = 512 := by decide
  rw [e0] at h0
  rw [e1] at h1
  exact ⟨h0, h1⟩

theorem fn_facts
    (a0 : FVec Ideal Cert.Pre_finite_inputs.S50000x64 .f32) (a1 : IVec Cert.Pre_finite_inputs.S2x800000 32)
    (a2 : IVec Cert.Pre_finite_inputs.S50000 32) (a3 : FVec Ideal Cert.Pre_finite_inputs.S50000x64 .f32)
    (a4 : IVec Cert.Pre_finite_inputs.S2x800000 32) (a5 : IVec Cert.Pre_finite_inputs.S50000 32)
    (a6 : FVec Ideal Cert.Pre_finite_inputs.S64x128 .f32) (a7 : FVec Ideal Cert.Pre_finite_inputs.S128 .f32)
    (a8 : FVec Ideal Cert.Pre_finite_inputs.S128x64 .f32) (a9 : FVec Ideal Cert.Pre_finite_inputs.S64 .f32)
    (a10 : FVec Ideal Cert.Pre_finite_inputs.S128x1 .f32) (a11 : FVec Ideal Cert.Pre_finite_inputs.S1 .f32)
    (h : Cert.Pre_finite_inputs.fn (F := Ideal) a0 a1 a2 a3 a4 a5 a6 a7 a8 a9 a10 a11 = fun _ => 1#1) :
    (∀ i, ∃ t : ℝ, a0 i = (t : EReal)) ∧ (∀ i, ∃ t : ℝ, a3 i = (t : EReal)) ∧ (∀ i, ∃ t : ℝ, a6 i = (t : EReal))
    ∧ (∀ i, 0 ≤ (a2 i).toInt ∧ (a2 i).toInt < 512) ∧ (∀ i, 0 ≤ (a5 i).toInt ∧ (a5 i).toInt < 512) := by
  have e := congrFun h ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨h0, h3⟩, h6⟩, -⟩, -⟩, -⟩, -⟩, -⟩, h2⟩, h5⟩ := e
  refine ⟨fun i => ?_, fun i => ?_, fun i => ?_, fun i => ?_, fun i => ?_⟩
  · exact real_of_abs_lt_inf (a0 i) (Host.reduce_andi_all _ _ _ _ _ h0 i)
  · exact real_of_abs_lt_inf (a3 i) (Host.reduce_andi_all _ _ _ _ _ h3 i)
  · exact real_of_abs_lt_inf (a6 i) (Host.reduce_andi_all _ _ _ _ _ h6 i)
  · have p := IntOp.andi_eq_one.1 (Host.reduce_andi_all _ _ _ _ _ h2 i)
    exact range_of_cmp (a2 i) p.1 p.2
  · have p := IntOp.andi_eq_one.1 (Host.reduce_andi_all _ _ _ _ _ h5 i)
    exact range_of_cmp (a5 i) p.1 p.2

theorem pre_facts (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ t : ℝ, (m ((c.tc : Thread Cert.KernelIdeal.nD Cert.KernelIdeal.τ).loc Cert.KernelIdeal.main_arg0) :
        Cert.KernelIdeal.S50000x64.Idx → EReal) i = (t : EReal))
    ∧ (∀ i, ∃ t : ℝ, (m ((c.tc : Thread Cert.KernelIdeal.nD Cert.KernelIdeal.τ).loc Cert.KernelIdeal.main_arg3) :
        Cert.KernelIdeal.S50000x64.Idx → EReal) i = (t : EReal))
    ∧ (∀ i, ∃ t : ℝ, (m ((c.tc : Thread Cert.KernelIdeal.nD Cert.KernelIdeal.τ).loc Cert.KernelIdeal.main_arg6) :
        Cert.KernelIdeal.S64x128.Idx → EReal) i = (t : EReal))
    ∧ (∀ i, 0 ≤ ((m ((c.tc : Thread Cert.KernelIdeal.nD Cert.KernelIdeal.τ).loc Cert.KernelIdeal.main_arg2) :
        Cert.KernelIdeal.S50000.Idx → BitVec 32) i).toInt
      ∧ ((m ((c.tc : Thread Cert.KernelIdeal.nD Cert.KernelIdeal.τ).loc Cert.KernelIdeal.main_arg2) :
        Cert.KernelIdeal.S50000.Idx → BitVec 32) i).toInt < 512)
    ∧ (∀ i, 0 ≤ ((m ((c.tc : Thread Cert.KernelIdeal.nD Cert.KernelIdeal.τ).loc Cert.KernelIdeal.main_arg5) :
        Cert.KernelIdeal.S50000.Idx → BitVec 32) i).toInt
      ∧ ((m ((c.tc : Thread Cert.KernelIdeal.nD Cert.KernelIdeal.τ).loc Cert.KernelIdeal.main_arg5) :
        Cert.KernelIdeal.S50000.Idx → BitVec 32) i).toInt < 512) :=
  fn_facts _ _ _ _ _ _ _ _ _ _ _ _ (h c)

end Cert.Bridge

end
-- ==== Proof.KIValue.lean ====
/- The kernel program's result array, at the ideal instance, is the reference's last stage of the same arguments. -/
import proofs.«416730_j309237645609_2_alg».proof.Proof.KIRun
import proofs.«416730_j309237645609_2_alg».proof.Proof.KIVal01
import proofs.«416730_j309237645609_2_alg».proof.Proof.KIVal2
import proofs.«416730_j309237645609_2_alg».proof.Proof.KFront
import proofs.«416730_j309237645609_2_alg».proof.Proof.KMiddle
import proofs.«416730_j309237645609_2_alg».proof.Proof.KTail
import proofs.«416730_j309237645609_2_alg».proof.Proof.Pool
import proofs.«416730_j309237645609_2_alg».proof.Proof.PreFacts

set_option maxRecDepth 16384

noncomputable section

namespace Cert.Bridge

open Idealize.ShloMosaic Idealize.ShloMosaic.TcCoe Idealize.ShloMosaic.ValueIdx Idealize.SL.Sem
open Cert.KernelIdeal Cert.KernelIdeal.Gen
open Cert.ReferenceIdeal.ReadP (val_main_v48 val_main_v87 val_main_v90 val_main_v210)

variable (m : (ℓ : Loc nD τ sig) → Buf (Elt Ideal) ℓ) (c : Dev nD)

local notation "Ω" => Hand.outs (F := Ideal) m Hand.dat2

theorem e7 (b : Ref sig .tc) : Hand.E7 (F := Ideal) m c b = V7 m Ω c b := (congrFun (Hand.V7_eq m Hand.dat2 c) _).symm
theorem e9 (b : Ref sig .tc) : Hand.E9 (F := Ideal) m c b = V9 m Ω c b := (congrFun (Hand.V9_eq m Hand.dat2 c) _).symm

theorem v88_eq : (V7 m Ω c main_v88 : S100000x128.Idx → EReal) = rg0 (V5 m c main_v86) (V5 m c main_arg6) (V5 m c main_v87) := by
  rw [V7_of m Ω c main_v88 (by decide)]
  show Function.update (V5 m c) (Proc.devRef .tc main_v88) (Ω 6 main_v88 c) (Proc.devRef .tc main_v88) = _
  rw [Function.update_self, Hand.outs_v88]
  exact arr0 (Hand.E5 m) c

theorem v7_arg8 : V7 m Ω c main_arg8 = (m ((c : Thread nD τ).loc main_arg8)) :=
  (V7_of m Ω c main_arg8 (by decide)).trans <| (V6_of m Ω c main_arg8 (by decide)).trans <|
    (V5_of m c main_arg8 (by decide)).trans <| (V4_of m c main_arg8 (by decide)).trans <| (V3_of m c main_arg8 (by decide)).trans <|
    (V2_of m c main_arg8 (by decide)).trans <| (V1_of m c main_arg8 (by decide)).trans rfl

theorem rows_v91 (hpre : Cert.Pre_KernelIdeal m) (r : Fin 100000) (o : Fin 64) :
    (Ω 8 main_v91 c : S100000x64.Idx → EReal) (ix2 r o) =
      if h : r.val < 50000 then
        val_main_v48 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (ix2 (⟨r.val, h⟩ : Fin 50000) o)
      else
        val_main_v48 (F := Ideal) (m ((c : Thread nD τ).loc main_arg3)) (m ((c : Thread nD τ).loc main_arg4)) (m ((c : Thread nD τ).loc main_arg6)) (m ((c : Thread nD τ).loc main_arg7)) (m ((c : Thread nD τ).loc main_arg8)) (ix2 (⟨r.val - 50000, by have := r.isLt; omega⟩ : Fin 50000) o) := by
  obtain ⟨hx0, hx3, hw, -, -⟩ := pre_facts m hpre c
  rw [Hand.outs_v91]
  show ((Hand.dat1 (F := Ideal) (Hand.E7 m) c).arrAt 2 cfg1.N : S100000x64.Idx → EReal) (ix2 r o) = _
  rw [arr1 (Hand.E7 m) c, e7, e7, v88_eq, v7_arg8]
  exact front m c hx0 hx3 hw r o

theorem rows_v131 (hpre : Cert.Pre_KernelIdeal m) (p : Fin 1024) (o : Fin 64) :
    (Ω 10 main_v131 c : S1024x64.Idx → EReal) (ix2 p o) =
      if h : p.val < 512 then
        val_main_v90 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (ix2 (⟨p.val, h⟩ : Fin 512) o)
      else
        val_main_v90 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (⟨p.val - 512, by have := p.isLt; omega⟩ : Fin 512) o) := by
  obtain ⟨-, -, -, hb1, hb2⟩ := pre_facts m hpre c
  rw [Hand.outs_v131]
  show ((Hand.dat2 (F := Ideal) (Hand.E9 m) c).arrAt 2 cfg2.N : S1024x64.Idx → EReal) (ix2 p o) = _
  rw [arr2 (Hand.E9 m) c, e9, e9]
  exact pool (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (V9 m Ω c main_v126) (V9 m Ω c main_v130) hb1 hb2
    (fun r o => middle_feats m Ω c (rows_v91 m c hpre) r o) (fun r => middle_ids m Ω c r) p o

/-- Dense layers act row by row on the stacked rows, aggregation commutes with the first weight, and pooling by stacked id is the per-side segment sum. -/
theorem result_eq (hpre : Cert.Pre_KernelIdeal m) :
    (Hand.W11 (F := Ideal) m Hand.dat2 c main_v158 : S512x1.Idx → EReal) =
      val_main_v210 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [← congrFun (Hand.V11_eq m Hand.dat2 c) _]
  exact tail m Ω c (rows_v131 m c hpre)

end Cert.Bridge

end
-- ==== Proof.RefRun.lean ====
import proofs.«416730_j309237645609_2_alg».proof.Proof.RefRunDefs
import proofs.«416730_j309237645609_2_alg».proof.Proof.RefRead
import proofs.«416730_j309237645609_2_alg».proof.Proof.Join
import Idealize.ShloMosaic.Lib.StableHlo.Run

set_option maxRecDepth 8192

noncomputable section

namespace Cert.ReferenceIdeal.ValueP

open Cert.ReferenceIdeal Cert.ReferenceIdeal.Gen Cert.ReferenceIdeal.ReadP Cert.Join
open Idealize.ShloMosaic Idealize.ShloMosaic.TcCoe Idealize.SL.Sem Idealize.ShloMosaic.StableHlo

variable {F : FTy → Type} [FloatOps F]

set_option maxHeartbeats 110800000 in
/-- From any contents, the line leaves in the result buffer the last stage of the twelve argument buffers: written
    out, the fold of the operations' results and the composite of the stages are one term. -/
theorem after_result (W : Valuation τ sig (Elt F)) :
    after ops W (Proc.devRef .tc main_v210) = val_main_v210 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  after_results_join [
    val_main_v0, val_main_v1, val_main_v2, val_main_v3, val_main_v4, val_main_v5, val_main_v6, val_main_v7,
    val_main_cst, val_main_v8, val_main_cst_0, val_main_v9, val_main_v10, val_main_v11, val_main_cst_1, val_main_v12,
    val_main_v13, val_main_v14, val_main_cst_2, val_main_call0_v0, val_main_call0_v1, val_main_v15, val_main_c,
    val_main_v16, val_main_v17, val_main_c_3, val_main_v18, val_main_v19, val_main_v20, val_main_v21, val_main_v22,
    val_main_c_4, val_main_v23, val_main_v24, val_main_c_5, val_main_v25, val_main_v26, val_main_v27, val_main_v28,
    val_main_v29, val_main_v30, val_main_c_6, val_main_v31, val_main_v32, val_main_c_7, val_main_v33, val_main_v34,
    val_main_v35, val_main_v36, val_main_v37, val_main_v38, val_main_v39, val_main_v40, val_main_cst_8, val_main_v41,
    val_main_v42, val_main_v43, val_main_v44, val_main_v45, val_main_v46, val_main_call1_cst, val_main_call1_v0,
    val_main_v47, val_main_v48, val_main_cst_9, val_main_v49, val_main_cst_10, val_main_v50, val_main_v51,
    val_main_v52, val_main_cst_11, val_main_v53, val_main_v54, val_main_v55, val_main_cst_12, val_main_call2_v0,
    val_main_call2_v1, val_main_v56, val_main_c_13, val_main_v57, val_main_v58, val_main_c_14, val_main_v59,
    val_main_v60, val_main_v61, val_main_v62, val_main_v63, val_main_c_15, val_main_v64, val_main_v65, val_main_c_16,
    val_main_v66, val_main_v67, val_main_v68, val_main_v69, val_main_v70, val_main_v71, val_main_c_17, val_main_v72,
    val_main_v73, val_main_c_18, val_main_v74, val_main_v75, val_main_v76, val_main_v77, val_main_v78, val_main_v79,
    val_main_v80, val_main_v81, val_main_cst_19, val_main_v82, val_main_v83, val_main_v84, val_main_v85,
    val_main_v86, val_main_v87, val_main_cst_20, val_main_v88, val_main_v89, val_main_v90, val_main_cst_21,
    val_main_v91, val_main_cst_22, val_main_v92, val_main_v93, val_main_v94, val_main_cst_23, val_main_v95,
    val_main_v96, val_main_v97, val_main_v98, val_main_v99, val_main_v200, val_main_v201, val_main_v202,
    val_main_v203, val_main_v204, val_main_v205, val_main_v206, val_main_cst_50, val_main_v207, val_main_v208,
    val_main_cst_51, val_main_v209, val_main_v210]
  rfl

set_option maxRecDepth 8192 in
set_option maxHeartbeats 4000000 in
/-- No operation of the line allocates: each one determines its results. -/
theorem ops_fresh : (ops : List (HloOp τ sig (Elt F))).Forall fun op => op.fresh = ∅ := by
  simp only [List.Forall]; repeat' constructor

set_option maxHeartbeats 110800000 in
/-- Every weakly fair execution of @main ends with the result at the last stage of the arguments, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v210) = val_main_v210 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v210).trans (after_result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ
      (fun _ => List.forall_iff_forall_mem.1 ops_fresh))

end Cert.ReferenceIdeal.ValueP

end
-- ==== Proof.lean ====
/- The certificate: each program runs to the end with its arguments unchanged, and at the ideal instance the idealized kernel and the idealized reference end with equal results. -/
import proofs.«416730_j309237645609_2_alg».proof.Defs
import proofs.«416730_j309237645609_2_alg».proof.Proof.Gen.Kernel
import proofs.«416730_j309237645609_2_alg».proof.Proof.Gen.KernelIdeal
import proofs.«416730_j309237645609_2_alg».proof.Proof.Gen.ReferenceIdeal
import proofs.«416730_j309237645609_2_alg».proof.Proof.Gen.Pre_finite_inputs
import proofs.«416730_j309237645609_2_alg».proof.Proof.KRun
import proofs.«416730_j309237645609_2_alg».proof.Proof.KIValue
import proofs.«416730_j309237645609_2_alg».proof.Proof.RefRun
import proofs.«416730_j309237645609_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_r : Cert.frame_ReferenceIdeal := fun m ρ _ =>
  (θ_run Cert.ReferenceIdeal.defs _ _).mono (fun _ h c => (h c).2) (Cert.ReferenceIdeal.ValueP.run (F := Ideal) m ρ)

theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

open Cert.KernelIdeal Cert.KernelIdeal.Gen in

theorem arg_kept (m : (ℓ : Loc nD τ sig) → Buf (Elt Ideal) ℓ) (c : Dev nD) (b : Ref sig .tc)
    (hb : V11 m (Cert.KernelIdeal.Hand.outs m Cert.KernelIdeal.Hand.dat2) c b = m ((c.tc : Thread nD τ).loc b)) :
    Cert.KernelIdeal.Hand.W11 m Cert.KernelIdeal.Hand.dat2 c b = m ((c.tc : Thread nD τ).loc b) :=
  (congrFun (Cert.KernelIdeal.Hand.V11_eq m Cert.KernelIdeal.Hand.dat2 c) _).symm.trans hb

open Cert.KernelIdeal Cert.KernelIdeal.Gen in

/-- Both runs are stated at one term: the kernel's last array is the reference's last stage of the same arguments. -/
theorem algebraic : Cert.algebraic_KernelIdeal_ReferenceIdeal := by
  intro m ρ m' ρ' hpre hagree
  refine ⟨fun c => Cert.KernelIdeal.Hand.W11 (F := Ideal) m Cert.KernelIdeal.Hand.dat2 c main_v158, ?_, ?_⟩
  · refine (θ_run Cert.KernelIdeal.defs _ _).mono (fun r h c => ?_) (Cert.KernelIdeal.Hand.run_all (F := Ideal) m ρ)
    exact ⟨h c _ (mem_uc main_v158 (by decide)),
      (h c _ (mem_uc main_arg0 (by decide))).trans (arg_kept m c main_arg0 (V11_main_arg0 m _ c)),
      (h c _ (mem_uc main_arg1 (by decide))).trans (arg_kept m c main_arg1 (V11_main_arg1 m _ c)),
      (h c _ (mem_uc main_arg2 (by decide))).trans (arg_kept m c main_arg2 (V11_main_arg2 m _ c)),
      (h c _ (mem_uc main_arg3 (by decide))).trans (arg_kept m c main_arg3 (V11_main_arg3 m _ c)),
      (h c _ (mem_uc main_arg4 (by decide))).trans (arg_kept m c main_arg4 (V11_main_arg4 m _ c)),
      (h c _ (mem_uc main_arg5 (by decide))).trans (arg_kept m c main_arg5 (V11_main_arg5 m _ c)),
      (h c _ (mem_uc main_arg6 (by decide))).trans (arg_kept m c main_arg6 (V11_main_arg6 m _ c)),
      (h c _ (mem_uc main_arg7 (by decide))).trans (arg_kept m c main_arg7 (V11_main_arg7 m _ c)),
      (h c _ (mem_uc main_arg8 (by decide))).trans (arg_kept m c main_arg8 (V11_main_arg8 m _ c)),
      (h c _ (mem_uc main_arg9 (by decide))).trans (arg_kept m c main_arg9 (V11_main_arg9 m _ c)),
      (h c _ (mem_uc main_arg10 (by decide))).trans (arg_kept m c main_arg10 (V11_main_arg10 m _ c)),
      (h c _ (mem_uc main_arg11 (by decide))).trans (arg_kept m c main_arg11 (V11_main_arg11 m _ c))⟩
  · refine (θ_run Cert.ReferenceIdeal.defs _ _).mono (fun _ h c => ⟨(h c).1.trans ?_, (h c).2⟩)
      (Cert.ReferenceIdeal.ValueP.run (F := Ideal) m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    exact (Cert.Bridge.result_eq m c hpre).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
